-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S16384x1024 : Shape := ⟨2, ![16384, 1024]⟩
abbrev S2048x1024 : Shape := ⟨2, ![2048, 1024]⟩
abbrev S4 : Shape := ⟨1, ![4]⟩
abbrev S_ : Shape := ⟨0, ![]⟩
abbrev S16 : Shape := ⟨1, ![16]⟩
abbrev S1 : Shape := ⟨1, ![1]⟩
abbrev S32x1024 : Shape := ⟨2, ![32, 1024]⟩
abbrev S64x1024 : Shape := ⟨2, ![64, 1024]⟩
abbrev S128x1024 : Shape := ⟨2, ![128, 1024]⟩
abbrev S256x1024 : Shape := ⟨2, ![256, 1024]⟩
abbrev S512x1024 : Shape := ⟨2, ![512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S16384x1024, .bf16⟩
  | .local _ .vmem, ⟨0, _⟩ => ⟨S8192x1024, .bf16⟩
  | .local _ .vmem, ⟨1, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_5 : BitVec 32 := 1#32
  let v10 : BitVec 32 := Scalar.muli v7 c1_i32_5
  let v11 : BitVec 32 := Scalar.addi v9 v10
  v11.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_8 : BitVec 32 := 2#32
  let v13 : BitVec 32 := Scalar.muli v12 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_11 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_11
  let c0_i32_15 : BitVec 32 := 0#32
  ![v18.toNat, 0]
def k0_off1_at (r : Fin 4) : BitVec 32 :=
  if r.val < 2 then
    if r.val < 1 then
      0#32
    else
      32#32
  else
    if r.val < 3 then
      4032#32
    else
      4064#32
def k0_off2 (d0 : Dev nD) (c64_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_20 : BitVec 32 := 4096#32
  let v29 : BitVec 32 := Scalar.muli v2 c4096_i32_20
  let v30 : BitVec 32 := Scalar.addi v29 c64_i32
  let c0_i32_23 : BitVec 32 := 0#32
  ![v30.toNat, 0]
def k0_off3 (d0 : Dev nD) (c128_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_24 : BitVec 32 := 4096#32
  let v35 : BitVec 32 := Scalar.muli v2 c4096_i32_24
  let v36 : BitVec 32 := Scalar.addi v35 c128_i32
  let c0_i32_26 : BitVec 32 := 0#32
  ![v36.toNat, 0]
def k0_off4 (d0 : Dev nD) (c0_i32_37 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_36 : BitVec 32 := 4096#32
  let v52 : BitVec 32 := Scalar.muli v2 c4096_i32_36
  let v53 : BitVec 32 := Scalar.addi v52 c0_i32_37
  let v56 : Index := Scalar.indexCast v53
  let c0_39 : Index := 0#32
  ![v56.toNat, 0]
def k0_off4_at (r : Fin 4) : BitVec 32 :=
  if r.val < 2 then
    if r.val < 1 then
      0#32
    else
      32#32
  else
    if r.val < 3 then
      4032#32
    else
      4064#32
def k0_off5 (d0 : Dev nD) (c256_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_40 : BitVec 32 := 4096#32
  let v60 : BitVec 32 := Scalar.muli v2 c4096_i32_40
  let v61 : BitVec 32 := Scalar.addi v60 c256_i32
  let c0_i32_44 : BitVec 32 := 0#32
  ![v61.toNat, 0]
def k0_off6 (d0 : Dev nD) (c0_i32_45 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v41 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_27 : BitVec 32 := 4096#32
  let v42 : BitVec 32 := Scalar.muli v2 c4096_i32_27
  let v43 : BitVec 32 := Scalar.addi v41 v42
  let v66 : BitVec 32 := Scalar.addi v43 c0_i32_45
  let c0_i32_52 : BitVec 32 := 0#32
  ![v66.toNat, 0]
def k0_off6_at (r : Fin 4) : BitVec 32 :=
  if r.val < 2 then
    if r.val < 1 then
      0#32
    else
      32#32
  else
    if r.val < 3 then
      4032#32
    else
      4064#32
def k0_dev3 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v68 : BitVec 32 := Scalar.muli v2 c2_i32_49
  let v69 : BitVec 32 := Scalar.addi c0_i32_50 v68
  let c1_i32_46 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v67 : BitVec 32 := Scalar.subi c1_i32_46 v5
  let c1_i32_51 : BitVec 32 := 1#32
  let v70 : BitVec 32 := Scalar.muli v67 c1_i32_51
  let v71 : BitVec 32 := Scalar.addi v69 v70
  v71.toNat
def k0_off7 (d0 : Dev nD) (c512_i32_63 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_62 : BitVec 32 := 4096#32
  let v90 : BitVec 32 := Scalar.muli v2 c4096_i32_62
  let v91 : BitVec 32 := Scalar.addi v90 c512_i32_63
  let c0_i32_67 : BitVec 32 := 0#32
  ![v91.toNat, 0]
def k0_dev4 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v98 : BitVec 32 := Scalar.muli v2 c2_i32_72
  let v99 : BitVec 32 := Scalar.addi c0_i32_73 v98
  let c1_i32_69 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v97 : BitVec 32 := Scalar.subi c1_i32_69 v5
  let c1_i32_74 : BitVec 32 := 1#32
  let v100 : BitVec 32 := Scalar.muli v97 c1_i32_74
  let v101 : BitVec 32 := Scalar.addi v99 v100
  v101.toNat
def k0_off8 (d0 : Dev nD) (c64_i32_82 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_81 : BitVec 32 := 4096#32
  let v112 : BitVec 32 := Scalar.muli v2 c4096_i32_81
  let v113 : BitVec 32 := Scalar.addi v112 c64_i32_82
  let v116 : Index := Scalar.indexCast v113
  let c0_84 : Index := 0#32
  ![v116.toNat, 0]
def k0_off9 (d0 : Dev nD) (c64_i32_91 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v41 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_27 : BitVec 32 := 4096#32
  let v42 : BitVec 32 := Scalar.muli v2 c4096_i32_27
  let v43 : BitVec 32 := Scalar.addi v41 v42
  let v126 : BitVec 32 := Scalar.addi v43 c64_i32_91
  let c0_i32_98 : BitVec 32 := 0#32
  ![v126.toNat, 0]
def k0_dev5 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v128 : BitVec 32 := Scalar.muli v2 c2_i32_95
  let v129 : BitVec 32 := Scalar.addi c0_i32_96 v128
  let c1_i32_92 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v127 : BitVec 32 := Scalar.subi c1_i32_92 v5
  let c1_i32_97 : BitVec 32 := 1#32
  let v130 : BitVec 32 := Scalar.muli v127 c1_i32_97
  let v131 : BitVec 32 := Scalar.addi v129 v130
  v131.toNat
def k0_off10 (d0 : Dev nD) (c128_i32_105 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_104 : BitVec 32 := 4096#32
  let v142 : BitVec 32 := Scalar.muli v2 c4096_i32_104
  let v143 : BitVec 32 := Scalar.addi v142 c128_i32_105
  let v146 : Index := Scalar.indexCast v143
  let c0_107 : Index := 0#32
  ![v146.toNat, 0]
def k0_off11 (d0 : Dev nD) (c128_i32_114 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v41 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_27 : BitVec 32 := 4096#32
  let v42 : BitVec 32 := Scalar.muli v2 c4096_i32_27
  let v43 : BitVec 32 := Scalar.addi v41 v42
  let v156 : BitVec 32 := Scalar.addi v43 c128_i32_114
  let c0_i32_121 : BitVec 32 := 0#32
  ![v156.toNat, 0]
def k0_dev6 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v158 : BitVec 32 := Scalar.muli v2 c2_i32_118
  let v159 : BitVec 32 := Scalar.addi c0_i32_119 v158
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v157 : BitVec 32 := Scalar.subi c1_i32_115 v5
  let c1_i32_120 : BitVec 32 := 1#32
  let v160 : BitVec 32 := Scalar.muli v157 c1_i32_120
  let v161 : BitVec 32 := Scalar.addi v159 v160
  v161.toNat
def k0_off12 (d0 : Dev nD) (c256_i32_128 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_127 : BitVec 32 := 4096#32
  let v172 : BitVec 32 := Scalar.muli v2 c4096_i32_127
  let v173 : BitVec 32 := Scalar.addi v172 c256_i32_128
  let v176 : Index := Scalar.indexCast v173
  let c0_131 : Index := 0#32
  ![v176.toNat, 0]
def k0_off13 (d0 : Dev nD) (c256_i32_137 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v41 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_27 : BitVec 32 := 4096#32
  let v42 : BitVec 32 := Scalar.muli v2 c4096_i32_27
  let v43 : BitVec 32 := Scalar.addi v41 v42
  let v186 : BitVec 32 := Scalar.addi v43 c256_i32_137
  let c0_i32_143 : BitVec 32 := 0#32
  ![v186.toNat, 0]
def k0_dev7 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v188 : BitVec 32 := Scalar.muli v2 c2_i32_140
  let v189 : BitVec 32 := Scalar.addi c0_i32_141 v188
  let c1_i32_138 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v187 : BitVec 32 := Scalar.subi c1_i32_138 v5
  let c1_i32_142 : BitVec 32 := 1#32
  let v190 : BitVec 32 := Scalar.muli v187 c1_i32_142
  let v191 : BitVec 32 := Scalar.addi v189 v190
  v191.toNat
def k0_off14 (d0 : Dev nD) (c512_i32_150 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_149 : BitVec 32 := 4096#32
  let v202 : BitVec 32 := Scalar.muli v2 c4096_i32_149
  let v203 : BitVec 32 := Scalar.addi v202 c512_i32_150
  let v206 : Index := Scalar.indexCast v203
  let c0_153 : Index := 0#32
  ![v206.toNat, 0]
def k0_off15 (d0 : Dev nD) (c512_i32_159 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v41 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_27 : BitVec 32 := 4096#32
  let v42 : BitVec 32 := Scalar.muli v2 c4096_i32_27
  let v43 : BitVec 32 := Scalar.addi v41 v42
  let v216 : BitVec 32 := Scalar.addi v43 c512_i32_159
  let c0_i32_165 : BitVec 32 := 0#32
  ![v216.toNat, 0]
def k0_dev8 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v218 : BitVec 32 := Scalar.muli v2 c2_i32_162
  let v219 : BitVec 32 := Scalar.addi c0_i32_163 v218
  let c1_i32_160 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v217 : BitVec 32 := Scalar.subi c1_i32_160 v5
  let c1_i32_164 : BitVec 32 := 1#32
  let v220 : BitVec 32 := Scalar.muli v217 c1_i32_164
  let v221 : BitVec 32 := Scalar.addi v219 v220
  v221.toNat
def k0_dev9 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v248 : BitVec 32 := Scalar.muli v2 c2_i32_184
  let v249 : BitVec 32 := Scalar.addi c0_i32_185 v248
  let c1_i32_182 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v247 : BitVec 32 := Scalar.subi c1_i32_182 v5
  let c1_i32_186 : BitVec 32 := 1#32
  let v250 : BitVec 32 := Scalar.muli v247 c1_i32_186
  let v251 : BitVec 32 := Scalar.addi v249 v250
  v251.toNat
def k0_dev10 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v278 : BitVec 32 := Scalar.muli v2 c2_i32_206
  let v279 : BitVec 32 := Scalar.addi c0_i32_207 v278
  let c1_i32_204 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v277 : BitVec 32 := Scalar.subi c1_i32_204 v5
  let c1_i32_208 : BitVec 32 := 1#32
  let v280 : BitVec 32 := Scalar.muli v277 c1_i32_208
  let v281 : BitVec 32 := Scalar.addi v279 v280
  v281.toNat
def k0_dev11 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v308 : BitVec 32 := Scalar.muli v2 c2_i32_228
  let v309 : BitVec 32 := Scalar.addi c0_i32_229 v308
  let c1_i32_226 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v307 : BitVec 32 := Scalar.subi c1_i32_226 v5
  let c1_i32_230 : BitVec 32 := 1#32
  let v310 : BitVec 32 := Scalar.muli v307 c1_i32_230
  let v311 : BitVec 32 := Scalar.addi v309 v310
  v311.toNat
def k0_dev12 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v338 : BitVec 32 := Scalar.muli v2 c2_i32_250
  let v339 : BitVec 32 := Scalar.addi c0_i32_251 v338
  let c1_i32_248 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v337 : BitVec 32 := Scalar.subi c1_i32_248 v5
  let c1_i32_252 : BitVec 32 := 1#32
  let v340 : BitVec 32 := Scalar.muli v337 c1_i32_252
  let v341 : BitVec 32 := Scalar.addi v339 v340
  v341.toNat
def k0_dev13 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v368 : BitVec 32 := Scalar.muli v2 c2_i32_272
  let v369 : BitVec 32 := Scalar.addi c0_i32_273 v368
  let c1_i32_270 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v367 : BitVec 32 := Scalar.subi c1_i32_270 v5
  let c1_i32_274 : BitVec 32 := 1#32
  let v370 : BitVec 32 := Scalar.muli v367 c1_i32_274
  let v371 : BitVec 32 := Scalar.addi v369 v370
  v371.toNat
def k0_dev14 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v398 : BitVec 32 := Scalar.muli v2 c2_i32_294
  let v399 : BitVec 32 := Scalar.addi c0_i32_295 v398
  let c1_i32_292 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v397 : BitVec 32 := Scalar.subi c1_i32_292 v5
  let c1_i32_296 : BitVec 32 := 1#32
  let v400 : BitVec 32 := Scalar.muli v397 c1_i32_296
  let v401 : BitVec 32 := Scalar.addi v399 v400
  v401.toNat
def k0_off16 (d0 : Dev nD) (c0_i32_310 : BitVec 32) : Fin 2 → Nat :=
  let c1_i32_308 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v420 : BitVec 32 := Scalar.subi c1_i32_308 v2
  let c4096_i32_309 : BitVec 32 := 4096#32
  let v421 : BitVec 32 := Scalar.muli v420 c4096_i32_309
  let v422 : BitVec 32 := Scalar.addi v421 c0_i32_310
  let c0_i32_314 : BitVec 32 := 0#32
  ![v422.toNat, 0]
def k0_dev15 (d0 : Dev nD) : Nat :=
  let c0_i32_319 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_318 : BitVec 32 := 2#32
  let v429 : BitVec 32 := Scalar.muli v2 c2_i32_318
  let v430 : BitVec 32 := Scalar.addi c0_i32_319 v429
  let c1_i32_316 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v428 : BitVec 32 := Scalar.subi c1_i32_316 v5
  let c1_i32_320 : BitVec 32 := 1#32
  let v431 : BitVec 32 := Scalar.muli v428 c1_i32_320
  let v432 : BitVec 32 := Scalar.addi v430 v431
  v432.toNat
def k0_dev16 (d0 : Dev nD) : Nat :=
  let c0_i32_343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_342 : BitVec 32 := 2#32
  let v460 : BitVec 32 := Scalar.muli v2 c2_i32_342
  let v461 : BitVec 32 := Scalar.addi c0_i32_343 v460
  let c1_i32_340 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v459 : BitVec 32 := Scalar.subi c1_i32_340 v5
  let c1_i32_344 : BitVec 32 := 1#32
  let v462 : BitVec 32 := Scalar.muli v459 c1_i32_344
  let v463 : BitVec 32 := Scalar.addi v461 v462
  v463.toNat
def k0_dev17 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v491 : BitVec 32 := Scalar.muli v2 c2_i32_366
  let v492 : BitVec 32 := Scalar.addi c0_i32_367 v491
  let c1_i32_364 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v490 : BitVec 32 := Scalar.subi c1_i32_364 v5
  let c1_i32_368 : BitVec 32 := 1#32
  let v493 : BitVec 32 := Scalar.muli v490 c1_i32_368
  let v494 : BitVec 32 := Scalar.addi v492 v493
  v494.toNat
def k0_dev18 (d0 : Dev nD) : Nat :=
  let c0_i32_391 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_390 : BitVec 32 := 2#32
  let v522 : BitVec 32 := Scalar.muli v2 c2_i32_390
  let v523 : BitVec 32 := Scalar.addi c0_i32_391 v522
  let c1_i32_388 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v521 : BitVec 32 := Scalar.subi c1_i32_388 v5
  let c1_i32_392 : BitVec 32 := 1#32
  let v524 : BitVec 32 := Scalar.muli v521 c1_i32_392
  let v525 : BitVec 32 := Scalar.addi v523 v524
  v525.toNat
def k0_off17 (d0 : Dev nD) (c0_i32_401 : BitVec 32) : Fin 2 → Nat :=
  let c1_i32_399 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v536 : BitVec 32 := Scalar.subi c1_i32_399 v2
  let c4096_i32_400 : BitVec 32 := 4096#32
  let v537 : BitVec 32 := Scalar.muli v536 c4096_i32_400
  let v538 : BitVec 32 := Scalar.addi v537 c0_i32_401
  let v541 : Index := Scalar.indexCast v538
  let c0_404 : Index := 0#32
  ![v541.toNat, 0]
def k0_off18 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_503 : BitVec 32 := 8192#32
  let v664 : BitVec 32 := Scalar.muli v5 c8192_i32_503
  let c0_i32_504 : BitVec 32 := 0#32
  ![v664.toNat, 0]
def k0_off19 (d0 : Dev nD) (c0_i32_513 : BitVec 32) : Fin 2 → Nat :=
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_28 v5
  let c8192_i32_29 : BitVec 32 := 8192#32
  let v45 : BitVec 32 := Scalar.muli v44 c8192_i32_29
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_30 : BitVec 32 := 4096#32
  let v46 : BitVec 32 := Scalar.muli v2 c4096_i32_30
  let v47 : BitVec 32 := Scalar.addi v45 v46
  let v675 : BitVec 32 := Scalar.addi v47 c0_i32_513
  let c0_i32_520 : BitVec 32 := 0#32
  ![v675.toNat, 0]
def k0_off19_at (r : Fin 4) : BitVec 32 :=
  if r.val < 2 then
    if r.val < 1 then
      0#32
    else
      32#32
  else
    if r.val < 3 then
      4032#32
    else
      4064#32
def k0_dev19 (d0 : Dev nD) : Nat :=
  let c0_i32_518 : BitVec 32 := 0#32
  let c1_i32_514 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v676 : BitVec 32 := Scalar.subi c1_i32_514 v2
  let c2_i32_517 : BitVec 32 := 2#32
  let v677 : BitVec 32 := Scalar.muli v676 c2_i32_517
  let v678 : BitVec 32 := Scalar.addi c0_i32_518 v677
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_519 : BitVec 32 := 1#32
  let v679 : BitVec 32 := Scalar.muli v5 c1_i32_519
  let v680 : BitVec 32 := Scalar.addi v678 v679
  v680.toNat
def k0_dev20 (d0 : Dev nD) : Nat :=
  let c0_i32_535 : BitVec 32 := 0#32
  let c1_i32_531 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v697 : BitVec 32 := Scalar.subi c1_i32_531 v2
  let c2_i32_534 : BitVec 32 := 2#32
  let v698 : BitVec 32 := Scalar.muli v697 c2_i32_534
  let v699 : BitVec 32 := Scalar.addi c0_i32_535 v698
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_536 : BitVec 32 := 1#32
  let v700 : BitVec 32 := Scalar.muli v5 c1_i32_536
  let v701 : BitVec 32 := Scalar.addi v699 v700
  v701.toNat
def k0_off20 (d0 : Dev nD) (c64_i32_547 : BitVec 32) : Fin 2 → Nat :=
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_28 v5
  let c8192_i32_29 : BitVec 32 := 8192#32
  let v45 : BitVec 32 := Scalar.muli v44 c8192_i32_29
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_30 : BitVec 32 := 4096#32
  let v46 : BitVec 32 := Scalar.muli v2 c4096_i32_30
  let v47 : BitVec 32 := Scalar.addi v45 v46
  let v717 : BitVec 32 := Scalar.addi v47 c64_i32_547
  let c0_i32_554 : BitVec 32 := 0#32
  ![v717.toNat, 0]
def k0_dev21 (d0 : Dev nD) : Nat :=
  let c0_i32_552 : BitVec 32 := 0#32
  let c1_i32_548 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v718 : BitVec 32 := Scalar.subi c1_i32_548 v2
  let c2_i32_551 : BitVec 32 := 2#32
  let v719 : BitVec 32 := Scalar.muli v718 c2_i32_551
  let v720 : BitVec 32 := Scalar.addi c0_i32_552 v719
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_553 : BitVec 32 := 1#32
  let v721 : BitVec 32 := Scalar.muli v5 c1_i32_553
  let v722 : BitVec 32 := Scalar.addi v720 v721
  v722.toNat
def k0_off21 (d0 : Dev nD) (c128_i32_564 : BitVec 32) : Fin 2 → Nat :=
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_28 v5
  let c8192_i32_29 : BitVec 32 := 8192#32
  let v45 : BitVec 32 := Scalar.muli v44 c8192_i32_29
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_30 : BitVec 32 := 4096#32
  let v46 : BitVec 32 := Scalar.muli v2 c4096_i32_30
  let v47 : BitVec 32 := Scalar.addi v45 v46
  let v738 : BitVec 32 := Scalar.addi v47 c128_i32_564
  let c0_i32_571 : BitVec 32 := 0#32
  ![v738.toNat, 0]
def k0_dev22 (d0 : Dev nD) : Nat :=
  let c0_i32_569 : BitVec 32 := 0#32
  let c1_i32_565 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v739 : BitVec 32 := Scalar.subi c1_i32_565 v2
  let c2_i32_568 : BitVec 32 := 2#32
  let v740 : BitVec 32 := Scalar.muli v739 c2_i32_568
  let v741 : BitVec 32 := Scalar.addi c0_i32_569 v740
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_570 : BitVec 32 := 1#32
  let v742 : BitVec 32 := Scalar.muli v5 c1_i32_570
  let v743 : BitVec 32 := Scalar.addi v741 v742
  v743.toNat
def k0_off22 (d0 : Dev nD) (c256_i32_581 : BitVec 32) : Fin 2 → Nat :=
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_28 v5
  let c8192_i32_29 : BitVec 32 := 8192#32
  let v45 : BitVec 32 := Scalar.muli v44 c8192_i32_29
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_30 : BitVec 32 := 4096#32
  let v46 : BitVec 32 := Scalar.muli v2 c4096_i32_30
  let v47 : BitVec 32 := Scalar.addi v45 v46
  let v759 : BitVec 32 := Scalar.addi v47 c256_i32_581
  let c0_i32_588 : BitVec 32 := 0#32
  ![v759.toNat, 0]
def k0_dev23 (d0 : Dev nD) : Nat :=
  let c0_i32_586 : BitVec 32 := 0#32
  let c1_i32_582 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v760 : BitVec 32 := Scalar.subi c1_i32_582 v2
  let c2_i32_585 : BitVec 32 := 2#32
  let v761 : BitVec 32 := Scalar.muli v760 c2_i32_585
  let v762 : BitVec 32 := Scalar.addi c0_i32_586 v761
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_587 : BitVec 32 := 1#32
  let v763 : BitVec 32 := Scalar.muli v5 c1_i32_587
  let v764 : BitVec 32 := Scalar.addi v762 v763
  v764.toNat
def k0_off23 (d0 : Dev nD) (c512_i32_598 : BitVec 32) : Fin 2 → Nat :=
  let c1_i32_28 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_28 v5
  let c8192_i32_29 : BitVec 32 := 8192#32
  let v45 : BitVec 32 := Scalar.muli v44 c8192_i32_29
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_30 : BitVec 32 := 4096#32
  let v46 : BitVec 32 := Scalar.muli v2 c4096_i32_30
  let v47 : BitVec 32 := Scalar.addi v45 v46
  let v780 : BitVec 32 := Scalar.addi v47 c512_i32_598
  let c0_i32_605 : BitVec 32 := 0#32
  ![v780.toNat, 0]
def k0_dev24 (d0 : Dev nD) : Nat :=
  let c0_i32_603 : BitVec 32 := 0#32
  let c1_i32_599 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v781 : BitVec 32 := Scalar.subi c1_i32_599 v2
  let c2_i32_602 : BitVec 32 := 2#32
  let v782 : BitVec 32 := Scalar.muli v781 c2_i32_602
  let v783 : BitVec 32 := Scalar.addi c0_i32_603 v782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_604 : BitVec 32 := 1#32
  let v784 : BitVec 32 := Scalar.muli v5 c1_i32_604
  let v785 : BitVec 32 := Scalar.addi v783 v784
  v785.toNat
def k0_dev25 (d0 : Dev nD) : Nat :=
  let c0_i32_620 : BitVec 32 := 0#32
  let c1_i32_616 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v802 : BitVec 32 := Scalar.subi c1_i32_616 v2
  let c2_i32_619 : BitVec 32 := 2#32
  let v803 : BitVec 32 := Scalar.muli v802 c2_i32_619
  let v804 : BitVec 32 := Scalar.addi c0_i32_620 v803
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_621 : BitVec 32 := 1#32
  let v805 : BitVec 32 := Scalar.muli v5 c1_i32_621
  let v806 : BitVec 32 := Scalar.addi v804 v805
  v806.toNat
def k0_dev26 (d0 : Dev nD) : Nat :=
  let c0_i32_637 : BitVec 32 := 0#32
  let c1_i32_633 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v823 : BitVec 32 := Scalar.subi c1_i32_633 v2
  let c2_i32_636 : BitVec 32 := 2#32
  let v824 : BitVec 32 := Scalar.muli v823 c2_i32_636
  let v825 : BitVec 32 := Scalar.addi c0_i32_637 v824
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_638 : BitVec 32 := 1#32
  let v826 : BitVec 32 := Scalar.muli v5 c1_i32_638
  let v827 : BitVec 32 := Scalar.addi v825 v826
  v827.toNat
def k0_dev27 (d0 : Dev nD) : Nat :=
  let c0_i32_654 : BitVec 32 := 0#32
  let c1_i32_650 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v844 : BitVec 32 := Scalar.subi c1_i32_650 v2
  let c2_i32_653 : BitVec 32 := 2#32
  let v845 : BitVec 32 := Scalar.muli v844 c2_i32_653
  let v846 : BitVec 32 := Scalar.addi c0_i32_654 v845
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_655 : BitVec 32 := 1#32
  let v847 : BitVec 32 := Scalar.muli v5 c1_i32_655
  let v848 : BitVec 32 := Scalar.addi v846 v847
  v848.toNat
def k0_dev28 (d0 : Dev nD) : Nat :=
  let c0_i32_671 : BitVec 32 := 0#32
  let c1_i32_667 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v865 : BitVec 32 := Scalar.subi c1_i32_667 v2
  let c2_i32_670 : BitVec 32 := 2#32
  let v866 : BitVec 32 := Scalar.muli v865 c2_i32_670
  let v867 : BitVec 32 := Scalar.addi c0_i32_671 v866
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_672 : BitVec 32 := 1#32
  let v868 : BitVec 32 := Scalar.muli v5 c1_i32_672
  let v869 : BitVec 32 := Scalar.addi v867 v868
  v869.toNat
def k0_dev29 (d0 : Dev nD) : Nat :=
  let c0_i32_688 : BitVec 32 := 0#32
  let c1_i32_684 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v886 : BitVec 32 := Scalar.subi c1_i32_684 v2
  let c2_i32_687 : BitVec 32 := 2#32
  let v887 : BitVec 32 := Scalar.muli v886 c2_i32_687
  let v888 : BitVec 32 := Scalar.addi c0_i32_688 v887
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_689 : BitVec 32 := 1#32
  let v889 : BitVec 32 := Scalar.muli v5 c1_i32_689
  let v890 : BitVec 32 := Scalar.addi v888 v889
  v890.toNat
def k0_dev30 (d0 : Dev nD) : Nat :=
  let c0_i32_705 : BitVec 32 := 0#32
  let c1_i32_701 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v907 : BitVec 32 := Scalar.subi c1_i32_701 v2
  let c2_i32_704 : BitVec 32 := 2#32
  let v908 : BitVec 32 := Scalar.muli v907 c2_i32_704
  let v909 : BitVec 32 := Scalar.addi c0_i32_705 v908
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_706 : BitVec 32 := 1#32
  let v910 : BitVec 32 := Scalar.muli v5 c1_i32_706
  let v911 : BitVec 32 := Scalar.addi v909 v910
  v911.toNat
def k0_dev31 (d0 : Dev nD) : Nat :=
  let c0_i32_722 : BitVec 32 := 0#32
  let c1_i32_718 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v928 : BitVec 32 := Scalar.subi c1_i32_718 v2
  let c2_i32_721 : BitVec 32 := 2#32
  let v929 : BitVec 32 := Scalar.muli v928 c2_i32_721
  let v930 : BitVec 32 := Scalar.addi c0_i32_722 v929
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_723 : BitVec 32 := 1#32
  let v931 : BitVec 32 := Scalar.muli v5 c1_i32_723
  let v932 : BitVec 32 := Scalar.addi v930 v931
  v932.toNat
def k0_dev32 (d0 : Dev nD) : Nat :=
  let c0_i32_739 : BitVec 32 := 0#32
  let c1_i32_735 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v949 : BitVec 32 := Scalar.subi c1_i32_735 v2
  let c2_i32_738 : BitVec 32 := 2#32
  let v950 : BitVec 32 := Scalar.muli v949 c2_i32_738
  let v951 : BitVec 32 := Scalar.addi c0_i32_739 v950
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_740 : BitVec 32 := 1#32
  let v952 : BitVec 32 := Scalar.muli v5 c1_i32_740
  let v953 : BitVec 32 := Scalar.addi v951 v952
  v953.toNat
def k0_dev33 (d0 : Dev nD) : Nat :=
  let c0_i32_756 : BitVec 32 := 0#32
  let c1_i32_752 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v970 : BitVec 32 := Scalar.subi c1_i32_752 v2
  let c2_i32_755 : BitVec 32 := 2#32
  let v971 : BitVec 32 := Scalar.muli v970 c2_i32_755
  let v972 : BitVec 32 := Scalar.addi c0_i32_756 v971
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_757 : BitVec 32 := 1#32
  let v973 : BitVec 32 := Scalar.muli v5 c1_i32_757
  let v974 : BitVec 32 := Scalar.addi v972 v973
  v974.toNat
def k0_dev34 (d0 : Dev nD) : Nat :=
  let c0_i32_773 : BitVec 32 := 0#32
  let c1_i32_769 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v991 : BitVec 32 := Scalar.subi c1_i32_769 v2
  let c2_i32_772 : BitVec 32 := 2#32
  let v992 : BitVec 32 := Scalar.muli v991 c2_i32_772
  let v993 : BitVec 32 := Scalar.addi c0_i32_773 v992
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_774 : BitVec 32 := 1#32
  let v994 : BitVec 32 := Scalar.muli v5 c1_i32_774
  let v995 : BitVec 32 := Scalar.addi v993 v994
  v995.toNat

class Facts₀ : Prop where
  hamt_1 : (1#32 : BitVec 32).msb = false
  inb_S4_S1_0 : ∀ a, (![0] : Fin 1 → Nat) a + S1.size a ≤ S4.size a
  squeezes_S1_S_ : S1.Squeezes S_
  inb_S2048x1024_S32x1024_0_0 : ∀ a, (![0, 0] : Fin 2 → Nat) a + S32x1024.size a ≤ S2048x1024.size a
  inb_S4_S1_1 : ∀ a, (![1] : Fin 1 → Nat) a + S1.size a ≤ S4.size a
  inb_S2048x1024_S32x1024_512_0 : ∀ a, (![512, 0] : Fin 2 → Nat) a + S32x1024.size a ≤ S2048x1024.size a
  inb_S4_S1_2 : ∀ a, (![2] : Fin 1 → Nat) a + S1.size a ≤ S4.size a
  inb_S2048x1024_S64x1024_1024_0 : ∀ a, (![1024, 0] : Fin 2 → Nat) a + S64x1024.size a ≤ S2048x1024.size a
  inb_S4_S1_3 : ∀ a, (![3] : Fin 1 → Nat) a + S1.size a ≤ S4.size a
  inb_S2048x1024_S128x1024_1536_0 : ∀ a, (![1536, 0] : Fin 2 → Nat) a + S128x1024.size a ≤ S2048x1024.size a
  hamt_2 : (2#32 : BitVec 32).msb = false
  h_S32x1024 : 0 < S32x1024.numel
  bitsLt_bf16_f32 : FTy.bits .bf16 < FTy.bits .f32
  shapeCasts_S32x1024_S32x1024 : S32x1024.ShapeCasts S32x1024
  inb_S2048x1024_S256x1024_0_0 : ∀ a, (![0, 0] : Fin 2 → Nat) a + S256x1024.size a ≤ S2048x1024.size a
  inb_S16_S1_0 : ∀ a, (![0] : Fin 1 → Nat) a + S1.size a ≤ S16.size a
  inb_S2048x1024_S512x1024_512_0 : ∀ a, (![512, 0] : Fin 2 → Nat) a + S512x1024.size a ≤ S2048x1024.size a
  inb_S16_S1_1 : ∀ a, (![1] : Fin 1 → Nat) a + S1.size a ≤ S16.size a
  h_S64x1024 : 0 < S64x1024.numel
  shapeCasts_S64x1024_S64x1024 : S64x1024.ShapeCasts S64x1024
  inb_S2048x1024_S512x1024_1024_0 : ∀ a, (![1024, 0] : Fin 2 → Nat) a + S512x1024.size a ≤ S2048x1024.size a
  inb_S16_S1_2 : ∀ a, (![2] : Fin 1 → Nat) a + S1.size a ≤ S16.size a
  h_S128x1024 : 0 < S128x1024.numel
  shapeCasts_S128x1024_S128x1024 : S128x1024.ShapeCasts S128x1024
  inb_S2048x1024_S512x1024_1536_0 : ∀ a, (![1536, 0] : Fin 2 → Nat) a + S512x1024.size a ≤ S2048x1024.size a
  inb_S16_S1_3 : ∀ a, (![3] : Fin 1 → Nat) a + S1.size a ≤ S16.size a
  h_S256x1024 : 0 < S256x1024.numel
  shapeCasts_S256x1024_S256x1024 : S256x1024.ShapeCasts S256x1024
  inb_S2048x1024_S512x1024_0_0 : ∀ a, (![0, 0] : Fin 2 → Nat) a + S512x1024.size a ≤ S2048x1024.size a
  inb_S16_S1_4 : ∀ a, (![4] : Fin 1 → Nat) a + S1.size a ≤ S16.size a
  h_S512x1024 : 0 < S512x1024.numel
  shapeCasts_S512x1024_S512x1024 : S512x1024.ShapeCasts S512x1024
  inb_S16_S1_5 : ∀ a, (![5] : Fin 1 → Nat) a + S1.size a ≤ S16.size a
  inb_S16_S1_6 : ∀ a, (![6] : Fin 1 → Nat) a + S1.size a ≤ S16.size a
  inb_S2048x1024_S256x1024_1536_0 : ∀ a, (![1536, 0] : Fin 2 → Nat) a + S256x1024.size a ≤ S2048x1024.size a
  inb_S16_S1_7 : ∀ a, (![7] : Fin 1 → Nat) a + S1.size a ≤ S16.size a
  inb_S2048x1024_S128x1024_0_0 : ∀ a, (![0, 0] : Fin 2 → Nat) a + S128x1024.size a ≤ S2048x1024.size a
  inb_S16_S1_8 : ∀ a, (![8] : Fin 1 → Nat) a + S1.size a ≤ S16.size a
  inb_S2048x1024_S64x1024_512_0 : ∀ a, (![512, 0] : Fin 2 → Nat) a + S64x1024.size a ≤ S2048x1024.size a
  inb_S16_S1_9 : ∀ a, (![9] : Fin 1 → Nat) a + S1.size a ≤ S16.size a
  inb_S2048x1024_S32x1024_1024_0 : ∀ a, (![1024, 0] : Fin 2 → Nat) a + S32x1024.size a ≤ S2048x1024.size a
  inb_S16_S1_10 : ∀ a, (![10] : Fin 1 → Nat) a + S1.size a ≤ S16.size a
  inb_S2048x1024_S32x1024_1536_0 : ∀ a, (![1536, 0] : Fin 2 → Nat) a + S32x1024.size a ≤ S2048x1024.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  hcc0_scratch2 : 0 + S4.numel ≤ 69
  hcc0_scratch3 : 4 + S_.numel ≤ 69
  hcc0_scratch4 : 5 + S16.numel ≤ 69
  hcc0_scratch5 : 21 + S16.numel ≤ 69
  hcc0_scratch6 : 37 + S16.numel ≤ 69
  hcc0_scratch7 : 53 + S16.numel ≤ 69
  k0_dev1_lt : ∀ d0 : Dev nD, (k0_dev1 d0) < nD
  k0_dev2_lt : ∀ d0 : Dev nD, (k0_dev2 d0) < nD
  k0_off1_inb : ∀ d0 : Dev nD, ∀ (r : Fin 4), ∀ a, (k0_off1 d0 (k0_off1_at r)) a + S32x1024.size a ≤ S8192x1024.size a
  k0_off2_inb : ∀ d0 : Dev nD, ∀ (r : Fin 2), ∀ a, (k0_off2 d0 (BitVec.ofNat 32 (64 + 3904 * r.val))) a + S64x1024.size a ≤ S8192x1024.size a
  k0_off3_inb : ∀ d0 : Dev nD, ∀ (r : Fin 2), ∀ a, (k0_off3 d0 (BitVec.ofNat 32 (128 + 3712 * r.val))) a + S128x1024.size a ≤ S8192x1024.size a
  k0_off4_inb : ∀ d0 : Dev nD, ∀ (r : Fin 4), ∀ a, (k0_off4 d0 (k0_off4_at r)) a + S32x1024.size a ≤ S8192x1024.size a
  k0_off4_packedbf16 : ∀ d0 : Dev nD, ∀ (r : Fin 4), (Rect.unit (s := S8192x1024) (k0_off4 d0 (k0_off4_at r)) S32x1024.size (k0_off4_inb d0 r)).PackedRows (EltTy.packing .bf16)
  k0_off5_inb : ∀ d0 : Dev nD, ∀ (r : Fin 2), ∀ a, (k0_off5 d0 (BitVec.ofNat 32 (256 + 3328 * r.val))) a + S256x1024.size a ≤ S8192x1024.size a
  k0_off6_inb : ∀ d0 : Dev nD, ∀ (r : Fin 4), ∀ a, (k0_off6 d0 (k0_off6_at r)) a + S32x1024.size a ≤ S16384x1024.size a
  k0_off1_wordsbf16 : ∀ d0 : Dev nD, ∀ (r : Fin 4), (Rect.unit (s := S8192x1024) (k0_off1 d0 (k0_off1_at r)) S32x1024.size (k0_off1_inb d0 r)).WholeWords (EltTy.packing .bf16)
  k0_off6_wordsbf16 : ∀ d0 : Dev nD, ∀ (r : Fin 4), (Rect.unit (s := S16384x1024) (k0_off6 d0 (k0_off6_at r)) S32x1024.size (k0_off6_inb d0 r)).WholeWords (EltTy.packing .bf16)
  k0_dev3_lt : ∀ d0 : Dev nD, (k0_dev3 d0) < nD
  k0_off7_inb : ∀ d0 : Dev nD, ∀ (r : Fin 6), ∀ a, (k0_off7 d0 (BitVec.ofNat 32 (512 + 512 * r.val))) a + S512x1024.size a ≤ S8192x1024.size a
  k0_dev4_lt : ∀ d0 : Dev nD, (k0_dev4 d0) < nD
  k0_off8_inb : ∀ d0 : Dev nD, ∀ (r : Fin 2), ∀ a, (k0_off8 d0 (BitVec.ofNat 32 (64 + 3904 * r.val))) a + S64x1024.size a ≤ S8192x1024.size a
  k0_off8_packedbf16 : ∀ d0 : Dev nD, ∀ (r : Fin 2), (Rect.unit (s := S8192x1024) (k0_off8 d0 (BitVec.ofNat 32 (64 + 3904 * r.val))) S64x1024.size (k0_off8_inb d0 r)).PackedRows (EltTy.packing .bf16)
  k0_off9_inb : ∀ d0 : Dev nD, ∀ (r : Fin 2), ∀ a, (k0_off9 d0 (BitVec.ofNat 32 (64 + 3904 * r.val))) a + S64x1024.size a ≤ S16384x1024.size a
  k0_off2_wordsbf16 : ∀ d0 : Dev nD, ∀ (r : Fin 2), (Rect.unit (s := S8192x1024) (k0_off2 d0 (BitVec.ofNat 32 (64 + 3904 * r.val))) S64x1024.size (k0_off2_inb d0 r)).WholeWords (EltTy.packing .bf16)
  k0_off9_wordsbf16 : ∀ d0 : Dev nD, ∀ (r : Fin 2), (Rect.unit (s := S16384x1024) (k0_off9 d0 (BitVec.ofNat 32 (64 + 3904 * r.val))) S64x1024.size (k0_off9_inb d0 r)).WholeWords (EltTy.packing .bf16)
  k0_dev5_lt : ∀ d0 : Dev nD, (k0_dev5 d0) < nD
  k0_off10_inb : ∀ d0 : Dev nD, ∀ (r : Fin 2), ∀ a, (k0_off10 d0 (BitVec.ofNat 32 (128 + 3712 * r.val))) a + S128x1024.size a ≤ S8192x1024.size a
  k0_off10_packedbf16 : ∀ d0 : Dev nD, ∀ (r : Fin 2), (Rect.unit (s := S8192x1024) (k0_off10 d0 (BitVec.ofNat 32 (128 + 3712 * r.val))) S128x1024.size (k0_off10_inb d0 r)).PackedRows (EltTy.packing .bf16)
  k0_off11_inb : ∀ d0 : Dev nD, ∀ (r : Fin 2), ∀ a, (k0_off11 d0 (BitVec.ofNat 32 (128 + 3712 * r.val))) a + S128x1024.size a ≤ S16384x1024.size a
  k0_off3_wordsbf16 : ∀ d0 : Dev nD, ∀ (r : Fin 2), (Rect.unit (s := S8192x1024) (k0_off3 d0 (BitVec.ofNat 32 (128 + 3712 * r.val))) S128x1024.size (k0_off3_inb d0 r)).WholeWords (EltTy.packing .bf16)
  k0_off11_wordsbf16 : ∀ d0 : Dev nD, ∀ (r : Fin 2), (Rect.unit (s := S16384x1024) (k0_off11 d0 (BitVec.ofNat 32 (128 + 3712 * r.val))) S128x1024.size (k0_off11_inb d0 r)).WholeWords (EltTy.packing .bf16)
  k0_dev6_lt : ∀ d0 : Dev nD, (k0_dev6 d0) < nD
  k0_off12_inb : ∀ d0 : Dev nD, ∀ (r : Fin 2), ∀ a, (k0_off12 d0 (BitVec.ofNat 32 (256 + 3328 * r.val))) a + S256x1024.size a ≤ S8192x1024.size a
  k0_off12_packedbf16 : ∀ d0 : Dev nD, ∀ (r : Fin 2), (Rect.unit (s := S8192x1024) (k0_off12 d0 (BitVec.ofNat 32 (256 + 3328 * r.val))) S256x1024.size (k0_off12_inb d0 r)).PackedRows (EltTy.packing .bf16)
  k0_off13_inb : ∀ d0 : Dev nD, ∀ (r : Fin 2), ∀ a, (k0_off13 d0 (BitVec.ofNat 32 (256 + 3328 * r.val))) a + S256x1024.size a ≤ S16384x1024.size a
  k0_off5_wordsbf16 : ∀ d0 : Dev nD, ∀ (r : Fin 2), (Rect.unit (s := S8192x1024) (k0_off5 d0 (BitVec.ofNat 32 (256 + 3328 * r.val))) S256x1024.size (k0_off5_inb d0 r)).WholeWords (EltTy.packing .bf16)
  k0_off13_wordsbf16 : ∀ d0 : Dev nD, ∀ (r : Fin 2), (Rect.unit (s := S16384x1024) (k0_off13 d0 (BitVec.ofNat 32 (256 + 3328 * r.val))) S256x1024.size (k0_off13_inb d0 r)).WholeWords (EltTy.packing .bf16)
  k0_dev7_lt : ∀ d0 : Dev nD, (k0_dev7 d0) < nD
  k0_off14_inb : ∀ d0 : Dev nD, ∀ (r : Fin 6), ∀ a, (k0_off14 d0 (BitVec.ofNat 32 (512 + 512 * r.val))) a + S512x1024.size a ≤ S8192x1024.size a
  k0_off14_packedbf16 : ∀ d0 : Dev nD, ∀ (r : Fin 6), (Rect.unit (s := S8192x1024) (k0_off14 d0 (BitVec.ofNat 32 (512 + 512 * r.val))) S512x1024.size (k0_off14_inb d0 r)).PackedRows (EltTy.packing .bf16)
  k0_off15_inb : ∀ d0 : Dev nD, ∀ (r : Fin 6), ∀ a, (k0_off15 d0 (BitVec.ofNat 32 (512 + 512 * r.val))) a + S512x1024.size a ≤ S16384x1024.size a
  k0_off7_wordsbf16 : ∀ d0 : Dev nD, ∀ (r : Fin 6), (Rect.unit (s := S8192x1024) (k0_off7 d0 (BitVec.ofNat 32 (512 + 512 * r.val))) S512x1024.size (k0_off7_inb d0 r)).WholeWords (EltTy.packing .bf16)
  k0_off15_wordsbf16 : ∀ d0 : Dev nD, ∀ (r : Fin 6), (Rect.unit (s := S16384x1024) (k0_off15 d0 (BitVec.ofNat 32 (512 + 512 * r.val))) S512x1024.size (k0_off15_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off16_inb : ∀ d0 : Dev nD, ∀ (r : Fin 8), ∀ a, (k0_off16 d0 (BitVec.ofNat 32 (512 * r.val))) a + S512x1024.size a ≤ S8192x1024.size a
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off17_inb : ∀ d0 : Dev nD, ∀ (r : Fin 8), ∀ a, (k0_off17 d0 (BitVec.ofNat 32 (512 * r.val))) a + S512x1024.size a ≤ S8192x1024.size a
  k0_off17_packedbf16 : ∀ d0 : Dev nD, ∀ (r : Fin 8), (Rect.unit (s := S8192x1024) (k0_off17 d0 (BitVec.ofNat 32 (512 * r.val))) S512x1024.size (k0_off17_inb d0 r)).PackedRows (EltTy.packing .bf16)
  k0_off18_inb : ∀ d0 : Dev nD, ∀ a, (k0_off18 d0) a + S8192x1024.size a ≤ S16384x1024.size a
  k0_off18_wordsbf16 : ∀ d0 : Dev nD, (Rect.unit (s := S16384x1024) (k0_off18 d0) S8192x1024.size (k0_off18_inb d0)).WholeWords (EltTy.packing .bf16)
  k0_off19_inb : ∀ d0 : Dev nD, ∀ (r : Fin 4), ∀ a, (k0_off19 d0 (k0_off19_at r)) a + S32x1024.size a ≤ S16384x1024.size a
  k0_off19_wordsbf16 : ∀ d0 : Dev nD, ∀ (r : Fin 4), (Rect.unit (s := S16384x1024) (k0_off19 d0 (k0_off19_at r)) S32x1024.size (k0_off19_inb d0 r)).WholeWords (EltTy.packing .bf16)
  k0_dev19_lt : ∀ d0 : Dev nD, (k0_dev19 d0) < nD
  k0_dev20_lt : ∀ d0 : Dev nD, (k0_dev20 d0) < nD
  k0_off20_inb : ∀ d0 : Dev nD, ∀ (r : Fin 2), ∀ a, (k0_off20 d0 (BitVec.ofNat 32 (64 + 3904 * r.val))) a + S64x1024.size a ≤ S16384x1024.size a
  k0_off20_wordsbf16 : ∀ d0 : Dev nD, ∀ (r : Fin 2), (Rect.unit (s := S16384x1024) (k0_off20 d0 (BitVec.ofNat 32 (64 + 3904 * r.val))) S64x1024.size (k0_off20_inb d0 r)).WholeWords (EltTy.packing .bf16)
  k0_dev21_lt : ∀ d0 : Dev nD, (k0_dev21 d0) < nD
  k0_off21_inb : ∀ d0 : Dev nD, ∀ (r : Fin 2), ∀ a, (k0_off21 d0 (BitVec.ofNat 32 (128 + 3712 * r.val))) a + S128x1024.size a ≤ S16384x1024.size a
  k0_off21_wordsbf16 : ∀ d0 : Dev nD, ∀ (r : Fin 2), (Rect.unit (s := S16384x1024) (k0_off21 d0 (BitVec.ofNat 32 (128 + 3712 * r.val))) S128x1024.size (k0_off21_inb d0 r)).WholeWords (EltTy.packing .bf16)
  k0_dev22_lt : ∀ d0 : Dev nD, (k0_dev22 d0) < nD
  k0_off22_inb : ∀ d0 : Dev nD, ∀ (r : Fin 2), ∀ a, (k0_off22 d0 (BitVec.ofNat 32 (256 + 3328 * r.val))) a + S256x1024.size a ≤ S16384x1024.size a
  k0_off22_wordsbf16 : ∀ d0 : Dev nD, ∀ (r : Fin 2), (Rect.unit (s := S16384x1024) (k0_off22 d0 (BitVec.ofNat 32 (256 + 3328 * r.val))) S256x1024.size (k0_off22_inb d0 r)).WholeWords (EltTy.packing .bf16)
  k0_dev23_lt : ∀ d0 : Dev nD, (k0_dev23 d0) < nD
  k0_off23_inb : ∀ d0 : Dev nD, ∀ (r : Fin 6), ∀ a, (k0_off23 d0 (BitVec.ofNat 32 (512 + 512 * r.val))) a + S512x1024.size a ≤ S16384x1024.size a
  k0_off23_wordsbf16 : ∀ d0 : Dev nD, ∀ (r : Fin 6), (Rect.unit (s := S16384x1024) (k0_off23 d0 (BitVec.ofNat 32 (512 + 512 * r.val))) S512x1024.size (k0_off23_inb d0 r)).WholeWords (EltTy.packing .bf16)
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD

variable [Facts₀]

abbrev cc0_scratch2 : DmaSems sig S4 := SemArray.consecutive 0 S4 hcc0_scratch2
abbrev cc0_scratch3 : DmaSems sig S_ := SemArray.consecutive 4 S_ hcc0_scratch3
abbrev cc0_scratch4 : DmaSems sig S16 := SemArray.consecutive 5 S16 hcc0_scratch4
abbrev cc0_scratch5 : DmaSems sig S16 := SemArray.consecutive 21 S16 hcc0_scratch5
abbrev cc0_scratch6 : DmaSems sig S16 := SemArray.consecutive 37 S16 hcc0_scratch6
abbrev cc0_scratch7 : DmaSems sig S16 := SemArray.consecutive 53 S16 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
import proofs.«900106_g7700000000000107_dist_ag_v7x_xy2x2_y_m8192_n1024_bf16_1_alg».proof.Proof.Gen.KernelIdeal
import proofs.«900106_g7700000000000107_dist_ag_v7x_xy2x2_y_m8192_n1024_bf16_1_alg».proof.Proof.Gen.KernelIdeal.Skeleton
import proofs.«900106_g7700000000000107_dist_ag_v7x_xy2x2_y_m8192_n1024_bf16_1_alg».proof.Proof.Gen.KernelIdeal.Launch
import proofs.«900106_g7700000000000107_dist_ag_v7x_xy2x2_y_m8192_n1024_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def yn (c : Dev nD) : Dev nD := ⟨(2 * (c.val / 2) + 1) - (c.val % 2), by revert c; decide⟩

def xn (c : Dev nD) : Dev nD := ⟨((c.val % 2) + 2) - 2 * (c.val / 2), by revert c; decide⟩

theorem yn_yn (c : Dev nD) : yn (yn c) = c := by revert c; decide
theorem xn_xn (c : Dev nD) : xn (xn c) = c := by revert c; decide
def yEquiv : Dev nD ≃ Dev nD := ⟨yn, yn, yn_yn, yn_yn⟩
def xEquiv : Dev nD ≃ Dev nD := ⟨xn, xn, xn_xn, xn_xn⟩

def cx (c : Dev nD) : ℕ := c.val / 2
def cy (c : Dev nD) : ℕ := c.val % 2
theorem cx_le (c : Dev nD) : cx c ≤ 1 := by revert c; decide
theorem cy_le (c : Dev nD) : cy c ≤ 1 := by revert c; decide
theorem cx_yn (c : Dev nD) : cx (yn c) = cx c := by revert c; decide
theorem cy_yn (c : Dev nD) : cy (yn c) = 1 - cy c := by revert c; decide
theorem cx_xn (c : Dev nD) : cx (xn c) = 1 - cx c := by revert c; decide
theorem cy_xn (c : Dev nD) : cy (xn c) = cy c := by revert c; decide

def chRows (j : ℕ) : ℕ := [32, 32, 64, 128, 256, 512, 512, 512, 512, 512, 512, 256, 128, 64, 32, 32].getD j 0
def chOff (j : ℕ) : ℕ := [0, 32, 64, 128, 256, 512, 1024, 1536, 2048, 2560, 3072, 3584, 3840, 3968, 4032, 4064].getD j 0

def ldRows (j : ℕ) : ℕ := if j < 16 then chRows j else 512

def ldLo (c : Dev nD) (j : ℕ) : ℕ := if j < 16 then 4096 * cx c + chOff j else 4096 * (1 - cx c) + 512 * (j - 16)

abbrev xM : Memref sig .tc .hbm S8192x1024 .f32 := Memref.whole main_arg0
abbrev oM : Memref sig .tc .hbm S16384x1024 .bf16 := Memref.whole main_v1
abbrev mineM : Memref sig .tc .vmem S8192x1024 .bf16 := Memref.whole cc0_scratch0
abbrev stgM : Memref sig .tc .vmem S2048x1024 .f32 := Memref.whole cc0_scratch1

abbrev xL (c : Dev nD) : Loc nD τ sig := (c : Thread nD τ).loc main_arg0
abbrev oL (c : Dev nD) : Loc nD τ sig := (c : Thread nD τ).loc main_v1
abbrev mL (c : Dev nD) : Loc nD τ sig := (c : Thread nD τ).loc cc0_scratch0
abbrev sL (c : Dev nD) : Loc nD τ sig := (c : Thread nD τ).loc cc0_scratch1

abbrev barS : Sem sig := (SemArray.scalar (sig.barrier 0 rfl) : Sems sig S_).sem
def ldS (k : Fin 4) : DmaSem sig := ⟨k.val, by have := k.isLt; show k.val < 69; omega⟩
def cpS : DmaSem sig := ⟨4, by show 4 < 69; decide⟩
def s1S (j : Fin 16) : DmaSem sig := ⟨5 + j.val, by have := j.isLt; show 5 + j.val < 69; omega⟩
def r1S (j : Fin 16) : DmaSem sig := ⟨21 + j.val, by have := j.isLt; show 21 + j.val < 69; omega⟩
def s2S (j : Fin 16) : DmaSem sig := ⟨37 + j.val, by have := j.isLt; show 37 + j.val < 69; omega⟩
def r2S (j : Fin 16) : DmaSem sig := ⟨53 + j.val, by have := j.isLt; show 53 + j.val < 69; omega⟩

abbrev barC (c : Dev nD) : GSem nD τ sig := ((c : Thread nD τ), .reg barS)
abbrev ldC (c : Dev nD) (k : Fin 4) : GSem nD τ sig := ((c : Thread nD τ), .dma (ldS k))
abbrev cpC (c : Dev nD) : GSem nD τ sig := ((c : Thread nD τ), .dma cpS)
abbrev s1C (c : Dev nD) (j : Fin 16) : GSem nD τ sig := ((c : Thread nD τ), .dma (s1S j))
abbrev r1C (c : Dev nD) (j : Fin 16) : GSem nD τ sig := ((c : Thread nD τ), .dma (r1S j))
abbrev s2C (c : Dev nD) (j : Fin 16) : GSem nD τ sig := ((c : Thread nD τ), .dma (s2S j))
abbrev r2C (c : Dev nD) (j : Fin 16) : GSem nD τ sig := ((c : Thread nD τ), .dma (r2S j))

inductive CK where
  | bar | ld (k : Fin 4) | cp | s1 (j : Fin 16) | r1 (j : Fin 16) | s2 (j : Fin 16) | r2 (j : Fin 16)
  deriving DecidableEq

def ck : SemLoc sig → CK
  | .reg _ => .bar
  | .dma s =>
    if h : s.val < 4 then .ld ⟨s.val, h⟩ else if s.val = 4 then .cp
    else if h : s.val < 21 then .s1 ⟨s.val - 5, by omega⟩
    else if h : s.val < 37 then .r1 ⟨s.val - 21, by omega⟩
    else if h : s.val < 53 then .s2 ⟨s.val - 37, by omega⟩
    else .r2 ⟨s.val - 53, by have : s.val < 69 := s.isLt; omega⟩

theorem ck_bar : ck (.reg barS) = .bar := rfl
theorem ck_ld (k : Fin 4) : ck (.dma (ldS k)) = .ld k := by revert k; decide
theorem ck_cp : ck (.dma cpS) = .cp := by decide
theorem ck_s1 (j : Fin 16) : ck (.dma (s1S j)) = .s1 j := by revert j; decide
theorem ck_r1 (j : Fin 16) : ck (.dma (r1S j)) = .r1 j := by revert j; decide
theorem ck_s2 (j : Fin 16) : ck (.dma (s2S j)) = .s2 j := by revert j; decide
theorem ck_r2 (j : Fin 16) : ck (.dma (r2S j)) = .r2 j := by revert j; decide

def xs (c : Dev nD) : Buf (Elt F) (xL c) := m (xL c)

def mineV (c : Dev nD) : Buf (Elt F) (mL c) := truncf .bf16 (xs m c) bitsLt_bf16_f32

def srcDev (R : ℕ) : Dev nD := ⟨(2 * ((R % 8192) / 4096) + R / 8192) % 4, Nat.mod_lt _ (by decide)⟩

def outV (c : Dev nD) : Buf (Elt F) (oL c) := fun i =>
  mineV m (if (i 0).val / 8192 = cy c then c else srcDev (i 0).val) (ValueIdx.ix2 ⟨(i 0).val % 8192, Nat.mod_lt _ (by decide)⟩ (i 1))

def rowsX (c : Dev nD) (lo hi : ℕ) : Finset (Idx (xL c)) := (Finset.univ : Finset S8192x1024.Idx).filter fun i => lo ≤ (i 0).val ∧ (i 0).val < hi
def rowsM (c : Dev nD) (lo hi : ℕ) : Finset (Idx (mL c)) := (Finset.univ : Finset S8192x1024.Idx).filter fun i => lo ≤ (i 0).val ∧ (i 0).val < hi
def rowsO (c : Dev nD) (lo hi : ℕ) : Finset (Idx (oL c)) := (Finset.univ : Finset S16384x1024.Idx).filter fun i => lo ≤ (i 0).val ∧ (i 0).val < hi
def rowsS (c : Dev nD) (lo hi : ℕ) : Finset (Idx (sL c)) := (Finset.univ : Finset S2048x1024.Idx).filter fun i => lo ≤ (i 0).val ∧ (i 0).val < hi

def MS (c : Dev nD) (j : ℕ) : Finset (Idx (mL c)) := rowsM c (ldLo c j) (ldLo c j + ldRows j)
def XS (c : Dev nD) (j : ℕ) : Finset (Idx (xL c)) := rowsX c (ldLo c j) (ldLo c j + ldRows j)

def SS (c : Dev nD) (k : ℕ) : Finset (Idx (sL c)) := rowsS c (512 * k) (512 * k + 512)

def q1Lo (c : Dev nD) (j : ℕ) : ℕ := 8192 * cy c + 4096 * cx c + chOff j

def q2Lo (c : Dev nD) (j : ℕ) : ℕ := 8192 * (1 - cy c) + 4096 * cx c + chOff j

def OS (d : Dev nD) (lo : ℕ) (j : ℕ) : Finset (Idx (oL d)) := rowsO d lo (lo + chRows j)

def OB (c : Dev nD) : Finset (Idx (oL c)) := rowsO c (8192 * cy c) (8192 * cy c + 8192)

def xIx (c : Dev nD) (R : ℕ) (q : Fin 1024) : Idx (xL c) := ValueIdx.ix2 (⟨R % 8192, Nat.mod_lt _ (by decide)⟩ : Fin 8192) q
def sIx (c : Dev nD) (R : ℕ) (q : Fin 1024) : Idx (sL c) := ValueIdx.ix2 (⟨R % 2048, Nat.mod_lt _ (by decide)⟩ : Fin 2048) q

abbrev shL : PosShare TreeShare := fullShare.left
abbrev shR : PosShare TreeShare := fullShare.right

def barPayF (c : Dev nD) : sProp 𝕄 :=
  bigSep (Finset.univ : Finset (Fin 16)) fun j => iprop(∃ f, oL (yn c) ↦[OS (yn c) (q1Lo c j.val) j.val]{fullShare} f)

def barPayT (c : Dev nD) : sProp 𝕄 :=
  bigSep (Finset.univ : Finset (Fin 16)) fun j => iprop(∃ f, oL (xn c) ↦[OS (xn c) (q2Lo c j.val) j.val]{fullShare} f)

def ldPay (c : Dev nD) (k : Fin 4) (r : ℕ) : sProp 𝕄 :=
  iprop(∃ f, (sL c ↦[SS c k.val]{fullShare} f)
    ∗ ⌜∀ (p : ℕ) (q : Fin 1024), p < ldRows (4 * r + k.val) → f (sIx c (512 * k.val + p) q) = xs m c (xIx c (ldLo c (4 * r + k.val) + p) q)⌝)

def cpPay (c : Dev nD) : sProp 𝕄 := iprop((oL c ↦[OB c]{fullShare} outV m c) ∗ (mL c ↦[Finset.univ]{shR} mineV m c))

def s1Pay (c : Dev nD) (j : Fin 16) : sProp 𝕄 := mL c ↦[MS c j.val]{shL} mineV m c

def r1Pay (c : Dev nD) (j : Fin 16) : sProp 𝕄 := oL c ↦[OS c (q2Lo c j.val) j.val]{fullShare} outV m c

def s2Pay (c : Dev nD) (j : Fin 16) : sProp 𝕄 := oL c ↦[OS c (q2Lo c j.val) j.val]{fullShare} outV m c

def r2Pay (c : Dev nD) (j : Fin 16) : sProp 𝕄 := oL c ↦[OS c (q2Lo (xn c) j.val) j.val]{fullShare} outV m c

def amtOn {sp : Space} {s : Shape} {e : EltTy} {κ : Kind} (v : View sig κ sp s e) (n : ℕ) : ℕ := sig.dmaCredit κ (κ.table sp) v.buf ⟨2, ![n, 1024]⟩ e
def ldAmt (j : ℕ) : ℕ := amtOn (stgM.view) (ldRows j)
def chAmt (j : ℕ) : ℕ := amtOn (oM.view) (chRows j)
def cpAmt : ℕ := amtOn (oM.view) 8192

theorem ldRows_pos (j : ℕ) (h : j < 24) : 0 < ldRows j := by
  unfold ldRows chRows; split
  · interval_cases j <;> decide
  · decide
theorem chRows_pos (j : ℕ) (h : j < 16) : 0 < chRows j := by unfold chRows; interval_cases j <;> decide

theorem numel_rows_pos (n : ℕ) (h : 0 < n) : 0 < (⟨2, ![n, 1024]⟩ : Shape).numel := by
  unfold Shape.numel; simp [Fin.prod_univ_two]; omega

theorem ldAmt_pos (j : ℕ) (h : j < 24) : 0 < ldAmt j := sig.dmaCredit_pos _ _ _ _ _ (numel_rows_pos _ (ldRows_pos j h))
theorem chAmt_pos (j : ℕ) (h : j < 16) : 0 < chAmt j := sig.dmaCredit_pos _ _ _ _ _ (numel_rows_pos _ (chRows_pos j h))
theorem cpAmt_pos : 0 < cpAmt := sig.dmaCredit_pos _ _ _ _ _ (numel_rows_pos _ (by decide))

def Rd : Rounds.Schedule (GSem nD τ sig) Bool 𝕄 where
  duties g r :=
    if g.1.2 = .tc then
      match ck g.2 with
      | .bar => if r = 0 then Finset.univ else ∅
      | .ld _ => if r < 6 then {false} else ∅
      | _ => if r = 0 then {false} else ∅
    else ∅
  unitless _ := False
  amount g r _ :=
    match ck g.2 with
    | .bar => 1
    | .ld k => if r < 6 then ldAmt (4 * r + k.val) else 1
    | .cp => cpAmt
    | .s1 j => chAmt j.val | .r1 j => chAmt j.val | .s2 j => chAmt j.val | .r2 j => chAmt j.val
  payload g r d :=
    match ck g.2 with
    | .bar => if d then barPayT g.1.1 else barPayF g.1.1
    | .ld k => ldPay m g.1.1 k r
    | .cp => cpPay m g.1.1
    | .s1 j => s1Pay m g.1.1 j | .r1 j => r1Pay m g.1.1 j | .s2 j => s2Pay m g.1.1 j | .r2 j => r2Pay m g.1.1 j
  amount_pos g r d _ := by
    cases hck : ck g.2 with
    | bar => simp only; exact Nat.one_pos
    | ld k => simp only; split
              · exact ldAmt_pos _ (by have := k.isLt; omega)
              · exact Nat.one_pos
    | cp => simp only; exact cpAmt_pos
    | s1 j => simp only; exact chAmt_pos _ j.isLt
    | r1 j => simp only; exact chAmt_pos _ j.isLt
    | s2 j => simp only; exact chAmt_pos _ j.isLt
    | r2 j => simp only; exact chAmt_pos _ j.isLt

end Cert.KernelIdeal.Hand
end
-- ==== Proof.State.lean ====
import proofs.«900106_g7700000000000107_dist_ag_v7x_xy2x2_y_m8192_n1024_bf16_1_alg».proof.Proof.Proto

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def csem (k : Fin 70) : SemLoc sig := if h : k.val = 0 then .reg barS else .dma ⟨k.val - 1, by have := k.isLt; show k.val - 1 < 69; omega⟩
abbrev kcell (ck : Dev nD × Fin 70) : GSem nD τ sig := ((ck.1 : Thread nD τ), csem ck.2)

abbrev osem : Fin 69 → SemLoc sig := fun k => .dma k

def records (K : Dev nD × Fin 70 → ℕ) : sProp 𝕄 :=
  iprop((bigSep Finset.univ fun ck : Dev nD × Fin 70 => cellInv ER (Rd m) (K ck) (kcell ck))
    ∗ bigSep Finset.univ fun ck : Dev nD × Fin 70 => reached ER (kcell ck) 0)

def positions (c : Dev nD) : sProp 𝕄 := bigSep Finset.univ fun k : Fin 70 => atPos ER (kcell (c, k)) 0 ∅ 0

def payToks (c : Dev nD) : sProp 𝕄 :=
  iprop(dutyTok ER (barC (yn c)) 0 false ∗ dutyTok ER (barC (xn c)) 0 true
    ∗ (bigSep Finset.univ fun kr : Fin 4 × Fin 6 => dutyTok ER (ldC c kr.1) kr.2.val false)
    ∗ dutyTok ER (cpC c) 0 false
    ∗ (bigSep Finset.univ fun j : Fin 16 => iprop(dutyTok ER (s1C c j) 0 false ∗ dutyTok ER (r1C (yn c) j) 0 false))
    ∗ (bigSep Finset.univ fun j : Fin 16 => iprop(dutyTok ER (s2C c j) 0 false ∗ dutyTok ER (r2C (xn c) j) 0 false)))

def creds (c : Dev nD) : sProp 𝕄 :=
  iprop(cred (tallyAt (barC c) () 2)
    ∗ (bigSep Finset.univ fun j : Fin 16 => cred (tallyAt (r1C c j) () (chAmt j.val)))
    ∗ (bigSep Finset.univ fun j : Fin 16 => cred (tallyAt (r2C c j) () (chAmt j.val))))

def ghost (K : Dev nD × Fin 70 → ℕ) (c : Dev nD) : sProp 𝕄 := iprop(records m K ∗ positions c ∗ payToks c)

def P1 (c : Dev nD) (j : ℕ) : CellTallies nD τ sig Unit :=
  ∑ i ∈ (Finset.univ : Finset (Fin 16)).filter (fun i => j ≤ i.val), tallyAt (r1C (yn c) i) () (chAmt i.val)
def P2 (c : Dev nD) (j : ℕ) : CellTallies nD τ sig Unit :=
  ∑ i ∈ (Finset.univ : Finset (Fin 16)).filter (fun i => j ≤ i.val), tallyAt (r2C (xn c) i) () (chAmt i.val)

def O₀ (c : Dev nD) : CellTallies nD τ sig Unit := P2 c 0 + P1 c 0 + tallyAt (barC (xn c)) () 1 + tallyAt (barC (yn c)) () 1

def L (g : GSem nD τ sig) : Finset Unit := if g.1.2 = .tc then {()} else ∅

def lv (g : GSem nD τ sig) (_ : Unit) : ℕ := match ck g.2 with | .bar => 1 | .r1 _ => 2 | .r2 _ => 3 | _ => 0

def xRem : ℕ → PosShare TreeShare
  | 0 => fullShare
  | n + 1 => (xRem n).right

def start (c : Dev nD) : sProp 𝕄 :=
  iprop((∃ K, ghost m K c) ∗ creds c ∗ levAts L lv ∗ (xL c ↦{fullShare} xs m c) ∗ (∃ f, oL c ↦{fullShare} f))

def Φ₀ (c : Dev nD) : sProp 𝕄 := iprop(start m c ∗ (∃ f, mL c ↦{fullShare} f) ∗ (∃ f, sL c ↦{fullShare} f))

def fin (c : Dev nD) : sProp 𝕄 := iprop((xL c ↦{xRem 24} xs m c) ∗ (oL c ↦{fullShare} outV m c))
def Φ₁ (c : Dev nD) : sProp 𝕄 :=
  iprop(fin m c ∗ ((∃ f, mL c ↦{fullShare} f) ∗ (∃ f, sL c ↦{fullShare} f))
    ∗ bigSep Finset.univ fun k : Fin 69 => semVal (((c : Thread nD τ), osem k) : GSem nD τ sig) 0)

def dats (_ : Fin 1) (c : Dev nD) : Dat τ (Elt F) Unit ℕ UU ℕ cfg0 c where
  A w := nomatch w
  after w _ := nomatch w
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Hand
end
-- ==== Proof.Cursor.lean ====
import proofs.«900106_g7700000000000107_dist_ag_v7x_xy2x2_y_m8192_n1024_bf16_1_alg».proof.Proof.State

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ UU ℕ

omit [FloatOps F] in

theorem ico_take (Φ : ℕ → sProp 𝕄) (j n : ℕ) (h : j < n) :
    bigSep (Finset.Ico j n) Φ = iprop(Φ j ∗ bigSep (Finset.Ico (j + 1) n) Φ) := by
  rw [← Finset.insert_Ico_succ_left_eq_Ico h, bigSep_insert (by simp)]; rfl

omit [FloatOps F] in

theorem range_put (Ψ : ℕ → sProp 𝕄) (j : ℕ) :
    bigSep (Finset.range (j + 1)) Ψ = iprop(Ψ j ∗ bigSep (Finset.range j) Ψ) := by
  rw [Finset.range_add_one, bigSep_insert (by simp)]; rfl

omit [FloatOps F] in
theorem ico_done (Φ : ℕ → sProp 𝕄) (n : ℕ) : bigSep (Finset.Ico n n) Φ = iprop(emp) := by
  rw [Finset.Ico_self, bigSep_empty]; rfl

omit [FloatOps F] in
theorem range_none (Ψ : ℕ → sProp 𝕄) : bigSep (Finset.range 0) Ψ = iprop(emp) := by
  rw [Finset.range_zero, bigSep_empty]; rfl

omit [FloatOps F] in
theorem ico_zero (Φ : ℕ → sProp 𝕄) (n : ℕ) : bigSep (Finset.Ico 0 n) Φ = bigSep (Finset.range n) Φ := by
  rw [Finset.range_eq_Ico]

omit [FloatOps F] in

theorem fin_range (n : ℕ) (Φ : ℕ → sProp 𝕄) :
    bigSep (Finset.univ : Finset (Fin n)) (fun j => Φ j.val) = bigSep (Finset.range n) Φ := by
  have h : Finset.range n = (Finset.univ : Finset (Fin n)).map Fin.valEmbedding := by
    ext x
    simp only [Finset.mem_range, Finset.mem_map, Finset.mem_univ, true_and, Fin.valEmbedding_apply]
    exact ⟨fun hx => ⟨⟨x, hx⟩, rfl⟩, fun ⟨a, ha⟩ => ha ▸ a.isLt⟩
  rw [h, bigSep_map]; rfl

end Cert.KernelIdeal.Hand
end
-- ==== Proof.Offs.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.Gen.KernelIdeal
import Mathlib.Tactic.IntervalCases

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem ldRows_le (j : ℕ) : ldRows j ≤ 512 := by
  unfold ldRows; split
  · rename_i h; unfold chRows; interval_cases j <;> decide
  · exact Nat.le_refl _

theorem ldLo_add_le (c : Dev nD) (j : ℕ) (h : j < 24) : ldLo c j + ldRows j ≤ 8192 := by
  interval_cases j <;> revert c <;> decide

theorem q1Lo_yn (c : Dev nD) (j : ℕ) : q1Lo (yn c) j = q2Lo c j := by
  unfold q1Lo q2Lo; rw [cy_yn, cx_yn]

-- Each printed offset and addressee, evaluated over the four devices, is a row of the chunk tables or a neighbour.
theorem off1_0 (c : Dev nD) : k0_off1 c 0#32 = ![ldLo c 0, 0] := by revert c; decide +kernel
theorem off1_32 (c : Dev nD) : k0_off1 c 32#32 = ![ldLo c 1, 0] := by revert c; decide +kernel
theorem off1_4032 (c : Dev nD) : k0_off1 c 4032#32 = ![ldLo c 14, 0] := by revert c; decide +kernel
theorem off1_4064 (c : Dev nD) : k0_off1 c 4064#32 = ![ldLo c 15, 0] := by revert c; decide +kernel

theorem off2_64 (c : Dev nD) : k0_off2 c 64#32 = ![ldLo c 2, 0] := by revert c; decide +kernel
theorem off2_3968 (c : Dev nD) : k0_off2 c 3968#32 = ![ldLo c 13, 0] := by revert c; decide +kernel

theorem off3_128 (c : Dev nD) : k0_off3 c 128#32 = ![ldLo c 3, 0] := by revert c; decide +kernel
theorem off3_3840 (c : Dev nD) : k0_off3 c 3840#32 = ![ldLo c 12, 0] := by revert c; decide +kernel

theorem off4_0 (c : Dev nD) : k0_off4 c 0#32 = ![ldLo c 0, 0] := by revert c; decide +kernel
theorem off4_32 (c : Dev nD) : k0_off4 c 32#32 = ![ldLo c 1, 0] := by revert c; decide +kernel
theorem off4_4032 (c : Dev nD) : k0_off4 c 4032#32 = ![ldLo c 14, 0] := by revert c; decide +kernel
theorem off4_4064 (c : Dev nD) : k0_off4 c 4064#32 = ![ldLo c 15, 0] := by revert c; decide +kernel

theorem off5_256 (c : Dev nD) : k0_off5 c 256#32 = ![ldLo c 4, 0] := by revert c; decide +kernel
theorem off5_3584 (c : Dev nD) : k0_off5 c 3584#32 = ![ldLo c 11, 0] := by revert c; decide +kernel

theorem off6_0 (c : Dev nD) : k0_off6 c 0#32 = ![q1Lo c 0, 0] := by revert c; decide +kernel
theorem off6_32 (c : Dev nD) : k0_off6 c 32#32 = ![q1Lo c 1, 0] := by revert c; decide +kernel
theorem off6_4032 (c : Dev nD) : k0_off6 c 4032#32 = ![q1Lo c 14, 0] := by revert c; decide +kernel
theorem off6_4064 (c : Dev nD) : k0_off6 c 4064#32 = ![q1Lo c 15, 0] := by revert c; decide +kernel

theorem off7_512 (c : Dev nD) : k0_off7 c 512#32 = ![ldLo c 5, 0] := by revert c; decide +kernel
theorem off7_1024 (c : Dev nD) : k0_off7 c 1024#32 = ![ldLo c 6, 0] := by revert c; decide +kernel
theorem off7_1536 (c : Dev nD) : k0_off7 c 1536#32 = ![ldLo c 7, 0] := by revert c; decide +kernel
theorem off7_2048 (c : Dev nD) : k0_off7 c 2048#32 = ![ldLo c 8, 0] := by revert c; decide +kernel
theorem off7_2560 (c : Dev nD) : k0_off7 c 2560#32 = ![ldLo c 9, 0] := by revert c; decide +kernel
theorem off7_3072 (c : Dev nD) : k0_off7 c 3072#32 = ![ldLo c 10, 0] := by revert c; decide +kernel

theorem off8_64 (c : Dev nD) : k0_off8 c 64#32 = ![ldLo c 2, 0] := by revert c; decide +kernel
theorem off8_3968 (c : Dev nD) : k0_off8 c 3968#32 = ![ldLo c 13, 0] := by revert c; decide +kernel

theorem off9_64 (c : Dev nD) : k0_off9 c 64#32 = ![q1Lo c 2, 0] := by revert c; decide +kernel
theorem off9_3968 (c : Dev nD) : k0_off9 c 3968#32 = ![q1Lo c 13, 0] := by revert c; decide +kernel

theorem off10_128 (c : Dev nD) : k0_off10 c 128#32 = ![ldLo c 3, 0] := by revert c; decide +kernel
theorem off10_3840 (c : Dev nD) : k0_off10 c 3840#32 = ![ldLo c 12, 0] := by revert c; decide +kernel

theorem off11_128 (c : Dev nD) : k0_off11 c 128#32 = ![q1Lo c 3, 0] := by revert c; decide +kernel
theorem off11_3840 (c : Dev nD) : k0_off11 c 3840#32 = ![q1Lo c 12, 0] := by revert c; decide +kernel

theorem off12_256 (c : Dev nD) : k0_off12 c 256#32 = ![ldLo c 4, 0] := by revert c; decide +kernel
theorem off12_3584 (c : Dev nD) : k0_off12 c 3584#32 = ![ldLo c 11, 0] := by revert c; decide +kernel

theorem off13_256 (c : Dev nD) : k0_off13 c 256#32 = ![q1Lo c 4, 0] := by revert c; decide +kernel
theorem off13_3584 (c : Dev nD) : k0_off13 c 3584#32 = ![q1Lo c 11, 0] := by revert c; decide +kernel

theorem off14_512 (c : Dev nD) : k0_off14 c 512#32 = ![ldLo c 5, 0] := by revert c; decide +kernel
theorem off14_1024 (c : Dev nD) : k0_off14 c 1024#32 = ![ldLo c 6, 0] := by revert c; decide +kernel
theorem off14_1536 (c : Dev nD) : k0_off14 c 1536#32 = ![ldLo c 7, 0] := by revert c; decide +kernel
theorem off14_2048 (c : Dev nD) : k0_off14 c 2048#32 = ![ldLo c 8, 0] := by revert c; decide +kernel
theorem off14_2560 (c : Dev nD) : k0_off14 c 2560#32 = ![ldLo c 9, 0] := by revert c; decide +kernel
theorem off14_3072 (c : Dev nD) : k0_off14 c 3072#32 = ![ldLo c 10, 0] := by revert c; decide +kernel

theorem off15_512 (c : Dev nD) : k0_off15 c 512#32 = ![q1Lo c 5, 0] := by revert c; decide +kernel
theorem off15_1024 (c : Dev nD) : k0_off15 c 1024#32 = ![q1Lo c 6, 0] := by revert c; decide +kernel
theorem off15_1536 (c : Dev nD) : k0_off15 c 1536#32 = ![q1Lo c 7, 0] := by revert c; decide +kernel
theorem off15_2048 (c : Dev nD) : k0_off15 c 2048#32 = ![q1Lo c 8, 0] := by revert c; decide +kernel
theorem off15_2560 (c : Dev nD) : k0_off15 c 2560#32 = ![q1Lo c 9, 0] := by revert c; decide +kernel
theorem off15_3072 (c : Dev nD) : k0_off15 c 3072#32 = ![q1Lo c 10, 0] := by revert c; decide +kernel

theorem off16_0 (c : Dev nD) : k0_off16 c 0#32 = ![ldLo c 16, 0] := by revert c; decide +kernel
theorem off16_512 (c : Dev nD) : k0_off16 c 512#32 = ![ldLo c 17, 0] := by revert c; decide +kernel
theorem off16_1024 (c : Dev nD) : k0_off16 c 1024#32 = ![ldLo c 18, 0] := by revert c; decide +kernel
theorem off16_1536 (c : Dev nD) : k0_off16 c 1536#32 = ![ldLo c 19, 0] := by revert c; decide +kernel
theorem off16_2048 (c : Dev nD) : k0_off16 c 2048#32 = ![ldLo c 20, 0] := by revert c; decide +kernel
theorem off16_2560 (c : Dev nD) : k0_off16 c 2560#32 = ![ldLo c 21, 0] := by revert c; decide +kernel
theorem off16_3072 (c : Dev nD) : k0_off16 c 3072#32 = ![ldLo c 22, 0] := by revert c; decide +kernel
theorem off16_3584 (c : Dev nD) : k0_off16 c 3584#32 = ![ldLo c 23, 0] := by revert c; decide +kernel

theorem off17_0 (c : Dev nD) : k0_off17 c 0#32 = ![ldLo c 16, 0] := by revert c; decide +kernel
theorem off17_512 (c : Dev nD) : k0_off17 c 512#32 = ![ldLo c 17, 0] := by revert c; decide +kernel
theorem off17_1024 (c : Dev nD) : k0_off17 c 1024#32 = ![ldLo c 18, 0] := by revert c; decide +kernel
theorem off17_1536 (c : Dev nD) : k0_off17 c 1536#32 = ![ldLo c 19, 0] := by revert c; decide +kernel
theorem off17_2048 (c : Dev nD) : k0_off17 c 2048#32 = ![ldLo c 20, 0] := by revert c; decide +kernel
theorem off17_2560 (c : Dev nD) : k0_off17 c 2560#32 = ![ldLo c 21, 0] := by revert c; decide +kernel
theorem off17_3072 (c : Dev nD) : k0_off17 c 3072#32 = ![ldLo c 22, 0] := by revert c; decide +kernel
theorem off17_3584 (c : Dev nD) : k0_off17 c 3584#32 = ![ldLo c 23, 0] := by revert c; decide +kernel

theorem off18 (c : Dev nD) : k0_off18 c = ![8192 * cy c, 0] := by revert c; decide +kernel

theorem off19_0 (c : Dev nD) : k0_off19 c 0#32 = ![q2Lo c 0, 0] := by revert c; decide +kernel
theorem off19_32 (c : Dev nD) : k0_off19 c 32#32 = ![q2Lo c 1, 0] := by revert c; decide +kernel
theorem off19_4032 (c : Dev nD) : k0_off19 c 4032#32 = ![q2Lo c 14, 0] := by revert c; decide +kernel
theorem off19_4064 (c : Dev nD) : k0_off19 c 4064#32 = ![q2Lo c 15, 0] := by revert c; decide +kernel

theorem off20_64 (c : Dev nD) : k0_off20 c 64#32 = ![q2Lo c 2, 0] := by revert c; decide +kernel
theorem off20_3968 (c : Dev nD) : k0_off20 c 3968#32 = ![q2Lo c 13, 0] := by revert c; decide +kernel

theorem off21_128 (c : Dev nD) : k0_off21 c 128#32 = ![q2Lo c 3, 0] := by revert c; decide +kernel
theorem off21_3840 (c : Dev nD) : k0_off21 c 3840#32 = ![q2Lo c 12, 0] := by revert c; decide +kernel

theorem off22_256 (c : Dev nD) : k0_off22 c 256#32 = ![q2Lo c 4, 0] := by revert c; decide +kernel
theorem off22_3584 (c : Dev nD) : k0_off22 c 3584#32 = ![q2Lo c 11, 0] := by revert c; decide +kernel

theorem off23_512 (c : Dev nD) : k0_off23 c 512#32 = ![q2Lo c 5, 0] := by revert c; decide +kernel
theorem off23_1024 (c : Dev nD) : k0_off23 c 1024#32 = ![q2Lo c 6, 0] := by revert c; decide +kernel
theorem off23_1536 (c : Dev nD) : k0_off23 c 1536#32 = ![q2Lo c 7, 0] := by revert c; decide +kernel
theorem off23_2048 (c : Dev nD) : k0_off23 c 2048#32 = ![q2Lo c 8, 0] := by revert c; decide +kernel
theorem off23_2560 (c : Dev nD) : k0_off23 c 2560#32 = ![q2Lo c 9, 0] := by revert c; decide +kernel
theorem off23_3072 (c : Dev nD) : k0_off23 c 3072#32 = ![q2Lo c 10, 0] := by revert c; decide +kernel

end Cert.KernelIdeal.Hand
end
-- ==== Proof.Levels.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem filter_peel (j : ℕ) (h : j < 16) :
    (Finset.univ : Finset (Fin 16)).filter (fun i => j ≤ i.val)
      = insert (⟨j, h⟩ : Fin 16) ((Finset.univ : Finset (Fin 16)).filter (fun i => j + 1 ≤ i.val)) := by
  ext i
  simp only [Finset.mem_filter, Finset.mem_univ, true_and, Finset.mem_insert, Fin.ext_iff]
  omega

theorem filter_peel_not_mem (j : ℕ) (h : j < 16) :
    (⟨j, h⟩ : Fin 16) ∉ (Finset.univ : Finset (Fin 16)).filter (fun i => j + 1 ≤ i.val) := by
  simp only [Finset.mem_filter, Finset.mem_univ, true_and]
  omega

theorem filter_end : (Finset.univ : Finset (Fin 16)).filter (fun i => 16 ≤ i.val) = ∅ :=
  Finset.filter_eq_empty_iff.mpr fun i _ => by have := i.isLt; omega

theorem P1_peel (c : Dev nD) (j : ℕ) (h : j < 16) :
    P1 c j = P1 c (j + 1) + tallyAt (r1C (yn c) ⟨j, h⟩) () (chAmt j) := by
  unfold P1
  rw [filter_peel j h, Finset.sum_insert (filter_peel_not_mem j h), add_comm]

theorem P2_peel (c : Dev nD) (j : ℕ) (h : j < 16) :
    P2 c j = P2 c (j + 1) + tallyAt (r2C (xn c) ⟨j, h⟩) () (chAmt j) := by
  unfold P2
  rw [filter_peel j h, Finset.sum_insert (filter_peel_not_mem j h), add_comm]

theorem P1_end (c : Dev nD) : P1 c 16 = 0 := by
  unfold P1; rw [filter_end, Finset.sum_empty]

theorem P2_end (c : Dev nD) : P2 c 16 = 0 := by
  unfold P2; rw [filter_end, Finset.sum_empty]

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by
  unfold lv; dsimp only; rw [ck_bar]
theorem lv_r1 (c : Dev nD) (j : Fin 16) : lv (r1C c j) () = 2 := by
  unfold lv; dsimp only; rw [ck_r1]
theorem lv_r2 (c : Dev nD) (j : Fin 16) : lv (r2C c j) () = 3 := by
  unfold lv; dsimp only; rw [ck_r2]
theorem lv_ld (c : Dev nD) (k : Fin 4) : lv (ldC c k) () = 0 := by
  unfold lv; dsimp only; rw [ck_ld]
theorem sum_tallyAt_pos {s : Finset (Fin 16)} {cell : Fin 16 → GSem nD τ sig} {amt : Fin 16 → ℕ}
    {g : GSem nD τ sig} {u : Unit}
    (h : 0 < (∑ i ∈ s, tallyAt (cell i) () (amt i) : CellTallies nD τ sig Unit) g u) : ∃ i, g = cell i := by
  by_contra hn
  rw [not_exists] at hn
  have h0 : (∑ i ∈ s, tallyAt (cell i) () (amt i) : CellTallies nD τ sig Unit) g = 0 := by
    rw [Finset.sum_apply]
    exact Finset.sum_eq_zero fun i _ => tallyAt_ne_cell (hn i) () _
  rw [h0, Finsupp.zero_apply] at h
  exact Nat.lt_irrefl 0 h

theorem P1_pos {c : Dev nD} {b : ℕ} {g : GSem nD τ sig} {u : Unit} (h : 0 < P1 c b g u) : ∃ i, g = r1C (yn c) i :=
  sum_tallyAt_pos (cell := fun i => r1C (yn c) i) (amt := fun i => chAmt i.val) h

theorem P2_pos {c : Dev nD} {a : ℕ} {g : GSem nD τ sig} {u : Unit} (h : 0 < P2 c a g u) : ∃ i, g = r2C (xn c) i :=
  sum_tallyAt_pos (cell := fun i => r2C (xn c) i) (amt := fun i => chAmt i.val) h

theorem owes_pos {c : Dev nD} {a b : ℕ} {g : GSem nD τ sig} {u : Unit} (h : 0 < (P2 c a + P1 c b) g u) :
    (∃ i, g = r2C (xn c) i) ∨ (∃ i, g = r1C (yn c) i) := by
  rw [Pi.add_apply, Finsupp.add_apply] at h
  rcases Nat.add_pos_iff_pos_or_pos.mp h with h2 | h1
  · exact Or.inl (P2_pos h2)
  · exact Or.inr (P1_pos h1)

theorem owes_lv {c : Dev nD} {a b : ℕ} {g : GSem nD τ sig} {u : Unit} (h : 0 < (P2 c a + P1 c b) g u) : 2 ≤ lv g u := by
  cases u
  rcases owes_pos h with ⟨i, rfl⟩ | ⟨i, rfl⟩
  · rw [lv_r2]; decide
  · rw [lv_r1]

theorem owes_L {c : Dev nD} {a b : ℕ} {g : GSem nD τ sig} {u : Unit} (h : 0 < (P2 c a + P1 c b) g u) : u ∈ L g := by
  cases u
  rcases owes_pos h with ⟨i, rfl⟩ | ⟨i, rfl⟩ <;> (rw [L_tc]; exact Finset.mem_singleton_self _)

theorem P2_lv {c : Dev nD} {a : ℕ} {g : GSem nD τ sig} {u : Unit} (h : 0 < P2 c a g u) : lv g u = 3 := by
  cases u
  obtain ⟨i, rfl⟩ := P2_pos h
  exact lv_r2 _ _

theorem P2_L {c : Dev nD} {a : ℕ} {g : GSem nD τ sig} {u : Unit} (h : 0 < P2 c a g u) : u ∈ L g := by
  cases u
  obtain ⟨i, rfl⟩ := P2_pos h
  rw [L_tc]; exact Finset.mem_singleton_self _

theorem mayWait_bar (c : Dev nD) :
    (levAts L lv : sProp 𝕄) ⊢ MayWait (c : Thread nD τ) (.reg barS) () (P2 c 0 + P1 c 0) :=
  MayOwe.of_cut (L := L) (lev := lv) 1
    (fun p hp => by rw [Finset.mem_singleton.mp hp, L_tc]; exact Finset.mem_singleton_self _)
    (fun g u hg => owes_L hg)
    (fun p hp => by rw [Finset.mem_singleton.mp hp]; exact le_of_eq (lv_bar c))
    (fun g u hg => owes_lv hg)

theorem mayWait_ld (c : Dev nD) (k : Fin 4) (j : ℕ) :
    (levAts L lv : sProp 𝕄) ⊢ MayWait (c : Thread nD τ) (.dma (ldS k)) () (P2 c 0 + P1 c j) :=
  MayOwe.of_cut (L := L) (lev := lv) 0
    (fun p hp => by rw [Finset.mem_singleton.mp hp, L_tc]; exact Finset.mem_singleton_self _)
    (fun g u hg => owes_L hg)
    (fun p hp => by rw [Finset.mem_singleton.mp hp]; exact le_of_eq (lv_ld c k))
    (fun g u hg => lt_of_lt_of_le (by decide) (owes_lv hg))

theorem mayWait_r1 (c : Dev nD) (j : Fin 16) (i : ℕ) :
    (levAts L lv : sProp 𝕄) ⊢ MayWait (c : Thread nD τ) (.dma (r1S j)) () (P2 c i) :=
  MayOwe.of_cut (L := L) (lev := lv) 2
    (fun p hp => by rw [Finset.mem_singleton.mp hp, L_tc]; exact Finset.mem_singleton_self _)
    (fun g u hg => P2_L hg)
    (fun p hp => by rw [Finset.mem_singleton.mp hp]; exact le_of_eq (lv_r1 c j))
    (fun g u hg => by rw [P2_lv hg]; decide)

theorem waits (c : Dev nD) : (levAts L lv : sProp 𝕄) ⊢ Pipeline.cellsWaits cfgs (dats m) () 0 c :=
  Pipeline.cellsWaits_intro cfgs (dats m) () 0 c fun w s t => nomatch w

end Cert.KernelIdeal.Hand
end
-- ==== Proof.Loops.lean ====
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

def f16 (i : ℕ) : Fin 16 := ⟨i % 16, Nat.mod_lt _ (by decide)⟩
def f4 (i : ℕ) : Fin 4 := ⟨i % 4, Nat.mod_lt _ (by decide)⟩
theorem f16_of_lt {i : ℕ} (h : i < 16) : f16 i = ⟨i, h⟩ := Fin.ext (Nat.mod_eq_of_lt h)
theorem f16_val (j : Fin 16) : f16 j.val = j := Fin.ext (Nat.mod_eq_of_lt j.isLt)
def Ow (c : Dev nD) (O : CellTallies nD τ sig Unit) : sProp 𝕄 := iprop(∃ W, owes (c : Thread nD τ) O W)

def Slot (c : Dev nD) (k : Fin 4) (r : ℕ) : sProp 𝕄 :=
  iprop(cred (tallyAt (ldC c k) () (ldAmt (4 * r + k.val))) ∗ atPos ER (ldC c k) r ∅ 0 ∗ reached ER (ldC c k) r
    ∗ bigSep (Finset.Ico (r + 1) 6) fun r' => dutyTok ER (ldC c k) r' false)

def SlotDone (c : Dev nD) (k : Fin 4) : sProp 𝕄 :=
  iprop(atPos ER (ldC c k) 6 ∅ 0 ∗ ∃ f, sL c ↦[SS c k.val]{fullShare} f)

def MnA (c : Dev nD) (fm : Buf (Elt F) (mL c)) (j : ℕ) : sProp 𝕄 :=
  iprop((bigSep (Finset.Ico j 24) fun i => mL c ↦[MS c i]{fullShare} fm)
    ∗ (bigSep (Finset.range j) fun i => mL c ↦[MS c i]{shR} mineV m c))

def MnB (c : Dev nD) (fm : Buf (Elt F) (mL c)) (j : ℕ) : sProp 𝕄 :=
  iprop((bigSep (Finset.Ico j 24) fun i => mL c ↦[MS c i]{fullShare} fm)
    ∗ (bigSep (Finset.range 16) fun i => mL c ↦[MS c i]{shR} mineV m c)
    ∗ (bigSep (Finset.Ico 16 j) fun i => mL c ↦[MS c i]{fullShare} mineV m c))

def P1st (c : Dev nD) (j : ℕ) : sProp 𝕄 :=
  iprop((bigSep (Finset.Ico j 16) fun i => iprop(dutyTok ER (s1C c (f16 i)) 0 false ∗ dutyTok ER (r1C (yn c) (f16 i)) 0 false
        ∗ ∃ f, oL (yn c) ↦[OS (yn c) (q1Lo c i) i]{fullShare} f))
    ∗ (bigSep (Finset.range j) fun i => cred (tallyAt (s1C c (f16 i)) () (chAmt i))))

def Bst (c : Dev nD) (j : ℕ) : sProp 𝕄 :=
  iprop((bigSep (Finset.Ico j 16) fun i => iprop(cred (tallyAt (r1C c (f16 i)) () (chAmt i)) ∗ atPos ER (r1C c (f16 i)) 0 ∅ 0
        ∗ dutyTok ER (s2C c (f16 i)) 0 false ∗ dutyTok ER (r2C (xn c) (f16 i)) 0 false
        ∗ ∃ f, oL (xn c) ↦[OS (xn c) (q2Lo c i) i]{fullShare} f))
    ∗ (bigSep (Finset.range j) fun i => iprop(atPos ER (r1C c (f16 i)) 1 ∅ 0 ∗ cred (tallyAt (s2C c (f16 i)) () (chAmt i)))))

def Cst (c : Dev nD) (j : ℕ) : sProp 𝕄 :=
  iprop((bigSep (Finset.Ico j 16) fun i => iprop(cred (tallyAt (r2C c (f16 i)) () (chAmt i)) ∗ atPos ER (r2C c (f16 i)) 0 ∅ 0))
    ∗ (bigSep (Finset.range j) fun i => iprop(atPos ER (r2C c (f16 i)) 1 ∅ 0 ∗ (oL c ↦[OS c (q2Lo (xn c) i) i]{fullShare} outV m c))))

def Dst (c : Dev nD) (j : ℕ) : sProp 𝕄 :=
  iprop((bigSep (Finset.Ico j 16) fun i => iprop(cred (tallyAt (s1C c (f16 i)) () (chAmt i)) ∗ atPos ER (s1C c (f16 i)) 0 ∅ 0
        ∗ cred (tallyAt (s2C c (f16 i)) () (chAmt i)) ∗ atPos ER (s2C c (f16 i)) 0 ∅ 0))
    ∗ (bigSep (Finset.range j) fun i => iprop(atPos ER (s1C c (f16 i)) 1 ∅ 0 ∗ (mL c ↦[MS c i]{shL} mineV m c)
        ∗ atPos ER (s2C c (f16 i)) 1 ∅ 0 ∗ (oL c ↦[OS c (q2Lo c i) i]{fullShare} outV m c))))

end Cert.KernelIdeal.Hand
end
-- ==== Proof.Tiles.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem cast_cast_id {α β : Type} (h : α = β) (h' : β = α) (a : α) : cast h' (cast h a) = a := by subst h; rfl
theorem mem_rowsM (c : Dev nD) (lo hi : ℕ) (i : Idx (mL c)) : i ∈ rowsM c lo hi ↔ lo ≤ (i 0).val ∧ (i 0).val < hi := by
  unfold rowsM
  exact ⟨fun h => (Finset.mem_filter.mp h).2, fun h => Finset.mem_filter.mpr ⟨Finset.mem_univ _, h⟩⟩
theorem mem_rowsO (c : Dev nD) (lo hi : ℕ) (i : Idx (oL c)) : i ∈ rowsO c lo hi ↔ lo ≤ (i 0).val ∧ (i 0).val < hi := by
  unfold rowsO
  exact ⟨fun h => (Finset.mem_filter.mp h).2, fun h => Finset.mem_filter.mpr ⟨Finset.mem_univ _, h⟩⟩
theorem mem_rowsS (c : Dev nD) (lo hi : ℕ) (i : Idx (sL c)) : i ∈ rowsS c lo hi ↔ lo ≤ (i 0).val ∧ (i 0).val < hi := by
  unfold rowsS
  exact ⟨fun h => (Finset.mem_filter.mp h).2, fun h => Finset.mem_filter.mpr ⟨Finset.mem_univ _, h⟩⟩

theorem rowsM_disjoint (c : Dev nD) (a b a' b' : ℕ) (h : b ≤ a' ∨ b' ≤ a) : Disjoint (rowsM c a b) (rowsM c a' b') := by
  rw [Finset.disjoint_left]
  intro i h1 h2
  rw [mem_rowsM] at h1 h2
  omega
theorem rowsO_disjoint (c : Dev nD) (a b a' b' : ℕ) (h : b ≤ a' ∨ b' ≤ a) : Disjoint (rowsO c a b) (rowsO c a' b') := by
  rw [Finset.disjoint_left]
  intro i h1 h2
  rw [mem_rowsO] at h1 h2
  omega
theorem rowsS_disjoint (c : Dev nD) (a b a' b' : ℕ) (h : b ≤ a' ∨ b' ≤ a) : Disjoint (rowsS c a b) (rowsS c a' b') := by
  rw [Finset.disjoint_left]
  intro i h1 h2
  rw [mem_rowsS] at h1 h2
  omega

theorem mem_unit_rows {R : ℕ} (lo n : ℕ)
    (inb : ∀ a, (![lo, 0] : Fin 2 → ℕ) a + (![n, 1024] : Fin 2 → ℕ) a ≤ (⟨2, ![R, 1024]⟩ : Shape).size a)
    (i : (⟨2, ![R, 1024]⟩ : Shape).Idx) :
    i ∈ (Rect.unit (s := ⟨2, ![R, 1024]⟩) ![lo, 0] ![n, 1024] inb).set ↔ lo ≤ (i 0).val ∧ (i 0).val < lo + n := by
  refine Rect.mem_set_unit.trans ?_
  constructor
  · intro h; have := h 0; simpa using this
  · intro h a
    fin_cases a
    · simpa using h
    · have := (i 1).isLt
      simp
      exact this

theorem set_slice_M (c : Dev nD) (off sz : Fin 2 → ℕ) (inb : ∀ a, off a + sz a ≤ S8192x1024.size a)
    (hs : ∀ a, (Rect.unit (s := S8192x1024) off sz inb).stride a = 1) (lo n : ℕ) (hoff : off = ![lo, 0]) (hsz : sz = ![n, 1024]) :
    (((mineM.slice (Rect.unit (s := S8192x1024) off sz inb) hs).view.set) : Finset (Idx (mL c))) = rowsM c lo (lo + n) := by
  subst hoff hsz
  refine (View.set_slice_whole (sig := sig) (κ := .tc) cc0_scratch0 (Rect.unit (s := S8192x1024) ![lo, 0] ![n, 1024] inb)).trans ?_
  ext i
  rw [mem_rowsM]
  exact mem_unit_rows lo n inb i

theorem setOn_access_M (c : Dev nD) (off sz : Fin 2 → ℕ) (inb : ∀ a, off a + sz a ≤ S8192x1024.size a)
    (lo n : ℕ) (hoff : off = ![lo, 0]) (hsz : sz = ![n, 1024]) :
    (((mineM.access (Rect.unit (s := S8192x1024) off sz inb)).setOn Finset.univ) : Finset (Idx (mL c))) = rowsM c lo (lo + n) :=
  set_slice_M c off sz inb (fun _ => rfl) lo n hoff hsz

theorem setOn_load_M (c : Dev nD) (off sz : Fin 2 → ℕ) (inb : ∀ a, off a + sz a ≤ S8192x1024.size a)
    (lo n : ℕ) (hoff : off = ![lo, 0]) (hsz : sz = ![n, 1024]) :
    ((mineM.view.setOn (Rect.unit (s := S8192x1024) off sz inb).toLoadRect.set) : Finset (Idx (mL c))) = rowsM c lo (lo + n) := by
  subst hoff hsz
  ext i
  rw [mem_rowsM]
  exact (View.mem_setOn (mineM.view) (x := i)).trans (mem_unit_rows lo n inb i)

theorem set_slice_O (d : Dev nD) (off sz : Fin 2 → ℕ) (inb : ∀ a, off a + sz a ≤ S16384x1024.size a)
    (hs : ∀ a, (Rect.unit (s := S16384x1024) off sz inb).stride a = 1) (lo n : ℕ) (hoff : off = ![lo, 0]) (hsz : sz = ![n, 1024]) :
    (((oM.slice (Rect.unit (s := S16384x1024) off sz inb) hs).view.set) : Finset (Idx (oL d))) = rowsO d lo (lo + n) := by
  subst hoff hsz
  refine (View.set_slice_whole (sig := sig) (κ := .tc) main_v1 (Rect.unit (s := S16384x1024) ![lo, 0] ![n, 1024] inb)).trans ?_
  ext i
  rw [mem_rowsO]
  exact mem_unit_rows lo n inb i

theorem set_slice_S (c : Dev nD) (off sz : Fin 2 → ℕ) (inb : ∀ a, off a + sz a ≤ S2048x1024.size a)
    (hs : ∀ a, (Rect.unit (s := S2048x1024) off sz inb).stride a = 1) (lo n : ℕ) (hoff : off = ![lo, 0]) (hsz : sz = ![n, 1024]) :
    (((stgM.slice (Rect.unit (s := S2048x1024) off sz inb) hs).view.set) : Finset (Idx (sL c))) = rowsS c lo (lo + n) := by
  subst hoff hsz
  refine (View.set_slice_whole (sig := sig) (κ := .tc) cc0_scratch1 (Rect.unit (s := S2048x1024) ![lo, 0] ![n, 1024] inb)).trans ?_
  ext i
  rw [mem_rowsS]
  exact mem_unit_rows lo n inb i

theorem setOn_load_S (c : Dev nD) (off sz : Fin 2 → ℕ) (inb : ∀ a, off a + sz a ≤ S2048x1024.size a)
    (lo n : ℕ) (hoff : off = ![lo, 0]) (hsz : sz = ![n, 1024]) :
    ((stgM.view.setOn (Rect.unit (s := S2048x1024) off sz inb).toLoadRect.set) : Finset (Idx (sL c))) = rowsS c lo (lo + n) := by
  subst hoff hsz
  ext i
  rw [mem_rowsS]
  exact (View.mem_setOn (stgM.view) (x := i)).trans (mem_unit_rows lo n inb i)

theorem chOff_next (j : ℕ) (h : j < 16) : (if j + 1 < 16 then chOff (j + 1) else 4096) = chOff j + chRows j := by
  interval_cases j <;> rfl

theorem chOff_mono (j j' : ℕ) (h : j < j') (h' : j' < 16) : chOff j + chRows j ≤ chOff j' :=
  (by decide : ∀ a b : Fin 16, a < b → chOff a.val + chRows a.val ≤ chOff b.val) ⟨j, by omega⟩ ⟨j', h'⟩ h

theorem chOff_top (j : ℕ) (h : j < 16) : chOff j + chRows j ≤ 4096 :=
  (by decide : ∀ a : Fin 16, chOff a.val + chRows a.val ≤ 4096) ⟨j, h⟩

-- The sixteen chunks tile a quarter of 4096 rows.
theorem chunk_cover (t : ℕ) (ht : t < 4096) : ∃ j : Fin 16, chOff j.val ≤ t ∧ t < chOff j.val + chRows j.val := by
  have key : ∀ k : ℕ, k ≤ 16 → t < (if k < 16 then chOff k else 4096) →
      ∃ j : Fin 16, chOff j.val ≤ t ∧ t < chOff j.val + chRows j.val := by
    intro k
    induction k with
    | zero => intro _ h; simp [chOff] at h
    | succ k ih =>
      intro hk h
      by_cases hlt : t < chOff k
      · exact ih (by omega) (by rw [if_pos (by omega)]; exact hlt)
      · rw [chOff_next k (by omega)] at h
        exact ⟨⟨k, by omega⟩, Nat.le_of_not_lt hlt, h⟩
  exact key 16 le_rfl (by simpa using ht)

theorem ld_sep (c : Dev nD) (j j' : ℕ) (hj : j < 24) (hj' : j' < 24) (hne : j ≠ j') :
    ldLo c j + ldRows j ≤ ldLo c j' ∨ ldLo c j' + ldRows j' ≤ ldLo c j := by
  have hc := cx_le c
  unfold ldLo ldRows
  by_cases h1 : j < 16 <;> by_cases h2 : j' < 16
  · simp only [if_pos h1, if_pos h2]
    rcases Nat.lt_or_gt_of_ne hne with h | h
    · have := chOff_mono j j' h h2; omega
    · have := chOff_mono j' j h h1; omega
  · simp only [if_pos h1, if_neg h2]
    have := chOff_top j h1
    omega
  · simp only [if_neg h1, if_pos h2]
    have := chOff_top j' h2
    omega
  · simp only [if_neg h1, if_neg h2]
    omega

theorem mine_cover (c : Dev nD) (r : ℕ) (hr : r < 8192) : ∃ j : Fin 24, ldLo c j.val ≤ r ∧ r < ldLo c j.val + ldRows j.val := by
  have hc := cx_le c
  by_cases h : 4096 * cx c ≤ r ∧ r < 4096 * cx c + 4096
  · obtain ⟨j, h1, h2⟩ := chunk_cover (r - 4096 * cx c) (by omega)
    have hj := j.isLt
    refine ⟨⟨j.val, by omega⟩, ?_⟩
    simp only [ldLo, ldRows, if_pos hj]
    omega
  · refine ⟨⟨16 + (r - 4096 * (1 - cx c)) / 512, by omega⟩, ?_⟩
    simp only [ldLo, ldRows]
    rw [if_neg (by omega), if_neg (by omega)]
    omega

-- The own block is the disjoint union of the twenty-four loaded row ranges.
theorem mine_tile (c : Dev nD) (q : PosShare TreeShare) (f : Buf (Elt F) (mL c)) :
    (mL c ↦{q} f : sProp 𝕄) = bigSep (Finset.univ : Finset (Fin 24)) fun j => mL c ↦[MS c j.val]{q} f := by
  have hU : (Finset.univ : Finset (Idx (mL c))) = (Finset.univ : Finset (Fin 24)).biUnion fun j => MS c j.val := by
    ext i
    simp only [Finset.mem_univ, Finset.mem_biUnion, true_and, true_iff]
    obtain ⟨j, hj⟩ := mine_cover c (i 0).val (i 0).isLt
    exact ⟨j, (mem_rowsM c _ _ i).mpr hj⟩
  exact (congrArg (fun S => (mL c ↦[S]{q} f : sProp 𝕄)) hU).trans (pointsTo_biUnion _ _ fun j _ j' _ hne => by
    unfold MS
    exact rowsM_disjoint c _ _ _ _ (ld_sep c j.val j'.val j.isLt j'.isLt (fun e => hne (Fin.ext e))))

theorem stg_tile (c : Dev nD) (q : PosShare TreeShare) (f : Buf (Elt F) (sL c)) :
    (sL c ↦{q} f : sProp 𝕄) = bigSep (Finset.univ : Finset (Fin 4)) fun k => sL c ↦[SS c k.val]{q} f := by
  have hU : (Finset.univ : Finset (Idx (sL c))) = (Finset.univ : Finset (Fin 4)).biUnion fun k => SS c k.val := by
    ext i
    simp only [Finset.mem_univ, Finset.mem_biUnion, true_and, true_iff]
    have h : (i 0).val < 2048 := (i 0).isLt
    exact ⟨⟨(i 0).val / 512, by omega⟩, (mem_rowsS c _ _ i).mpr (by dsimp only; omega)⟩
  exact (congrArg (fun S => (sL c ↦[S]{q} f : sProp 𝕄)) hU).trans (pointsTo_biUnion _ _ fun k _ k' _ hne => by
    unfold SS
    exact rowsS_disjoint c _ _ _ _ (by have : k.val ≠ k'.val := fun e => hne (Fin.ext e); omega))

theorem quarter_tile (d : Dev nD) (q : PosShare TreeShare) (f : Buf (Elt F) (oL d)) (base : ℕ) :
    (oL d ↦[rowsO d base (base + 4096)]{q} f : sProp 𝕄)
      = bigSep (Finset.univ : Finset (Fin 16)) fun j => oL d ↦[OS d (base + chOff j.val) j.val]{q} f := by
  have hU : rowsO d base (base + 4096) = (Finset.univ : Finset (Fin 16)).biUnion fun j => OS d (base + chOff j.val) j.val := by
    ext i
    simp only [Finset.mem_biUnion, Finset.mem_univ, true_and, OS, mem_rowsO]
    constructor
    · intro h
      obtain ⟨j, h1, h2⟩ := chunk_cover ((i 0).val - base) (by omega)
      exact ⟨j, by omega⟩
    · rintro ⟨j, hj⟩
      have := chOff_top j.val j.isLt
      omega
  rw [hU]
  exact pointsTo_biUnion _ _ fun j _ j' _ hne => by
    unfold OS
    refine rowsO_disjoint d _ _ _ _ ?_
    rcases Nat.lt_or_gt_of_ne (fun e => hne (Fin.ext e)) with h | h
    · have := chOff_mono j.val j'.val h j'.isLt; omega
    · have := chOff_mono j'.val j.val h j.isLt; omega

-- The result splits into the device's own half and the two quarters it receives, each quarter into its sixteen chunks.
theorem out_tile (c : Dev nD) (q : PosShare TreeShare) (f : Buf (Elt F) (oL c)) :
    (oL c ↦{q} f : sProp 𝕄) = iprop((oL c ↦[OB c]{q} f)
      ∗ (bigSep (Finset.univ : Finset (Fin 16)) fun j => oL c ↦[OS c (q2Lo c j.val) j.val]{q} f)
      ∗ (bigSep (Finset.univ : Finset (Fin 16)) fun j => oL c ↦[OS c (q2Lo (xn c) j.val) j.val]{q} f)) := by
  have hx := cx_le c
  have hy := cy_le c
  obtain ⟨a, ha⟩ : ∃ a, a = 8192 * (1 - cy c) + 4096 * cx c := ⟨_, rfl⟩
  obtain ⟨b, hb⟩ : ∃ b, b = 8192 * (1 - cy c) + 4096 * (1 - cx c) := ⟨_, rfl⟩
  have e5 : ∀ j, q2Lo c j = a + chOff j := fun j => by rw [ha]; rfl
  have e6 : ∀ j, q2Lo (xn c) j = b + chOff j := fun j => by rw [hb]; unfold q2Lo; rw [cx_xn, cy_xn]
  have hU : (Finset.univ : Finset (Idx (oL c))) = OB c ∪ (rowsO c a (a + 4096) ∪ rowsO c b (b + 4096)) := by
    ext i
    have h : (i 0).val < 16384 := (i 0).isLt
    simp only [Finset.mem_univ, Finset.mem_union, OB, mem_rowsO, true_iff]
    omega
  have hAB : Disjoint (rowsO c a (a + 4096)) (rowsO c b (b + 4096)) := rowsO_disjoint c _ _ _ _ (by omega)
  have hOB : Disjoint (OB c) (rowsO c a (a + 4096) ∪ rowsO c b (b + 4096)) :=
    Finset.disjoint_union_right.mpr ⟨rowsO_disjoint c _ _ _ _ (by omega), rowsO_disjoint c _ _ _ _ (by omega)⟩
  have e1 : (oL c ↦[OB c ∪ (rowsO c a (a + 4096) ∪ rowsO c b (b + 4096))]{q} f : sProp 𝕄)
      = iprop((oL c ↦[OB c]{q} f) ∗ oL c ↦[rowsO c a (a + 4096) ∪ rowsO c b (b + 4096)]{q} f) :=
    BI.equiv_iff.mp ⟨(pointsTo_union hOB).1, (pointsTo_union hOB).2⟩
  have e2 : (oL c ↦[rowsO c a (a + 4096) ∪ rowsO c b (b + 4096)]{q} f : sProp 𝕄)
      = iprop((oL c ↦[rowsO c a (a + 4096)]{q} f) ∗ oL c ↦[rowsO c b (b + 4096)]{q} f) :=
    BI.equiv_iff.mp ⟨(pointsTo_union hAB).1, (pointsTo_union hAB).2⟩
  refine (congrArg (fun S => (oL c ↦[S]{q} f : sProp 𝕄)) hU).trans ?_
  simp only [e5, e6]
  rw [e1, e2, quarter_tile c q f a, quarter_tile c q f b]

theorem mine_halves (c : Dev nD) (S : Finset (Idx (mL c))) (f : Buf (Elt F) (mL c)) :
    (mL c ↦[S]{fullShare} f : sProp 𝕄) ⊣⊢ iprop((mL c ↦[S]{shL} f) ∗ (mL c ↦[S]{shR} f)) :=
  pointsTo_share (PosShare.mem_left_op_right fullShare)

end Cert.KernelIdeal.Hand
end
-- ==== Proof.Sizes.lean ====
import proofs.«900106_g7700000000000107_dist_ag_v7x_xy2x2_y_m8192_n1024_bf16_1_alg».proof.Proof.Proto

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem amount_O {off sz : Fin 2 → ℕ} {n : ℕ} (hsz : sz = ![n, 1024])
    (inb : ∀ a, off a + sz a ≤ S16384x1024.size a)
    (hs : ∀ a, (Rect.unit (s := S16384x1024) off sz inb).stride a = 1) (s : DmaSem sig) :
    (oM.slice (Rect.unit (s := S16384x1024) off sz inb) hs).view.amount (.dma s) = amtOn oM.view n := by
  subst hsz; rfl

theorem cpAmt_eq : cpAmt = amtOn oM.view 8192 := rfl

end Cert.KernelIdeal.Hand
end
-- ==== Proof.Bridges.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import Mathlib.Logic.Equiv.Fin.Basic

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

omit [FloatOps F] in

theorem bigSep_fin_add (a b : ℕ) (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

omit [FloatOps F] in
theorem bigSep_fin_split {n : ℕ} (a b : ℕ) (h : n = a + b) (Φ : Fin n → sProp 𝕄) :
    bigSep Finset.univ Φ = iprop((bigSep Finset.univ fun i : Fin a => Φ ⟨i.val, by have := i.isLt; omega⟩)
      ∗ bigSep Finset.univ fun j : Fin b => Φ ⟨a + j.val, by have := j.isLt; omega⟩) := by
  subst h; rw [bigSep_fin_add]; rfl

omit [FloatOps F] in

theorem fin16_range (Φ : Fin 16 → sProp 𝕄) (Ψ : ℕ → sProp 𝕄) (h : ∀ j : Fin 16, Φ j = Ψ j.val) :
    bigSep (Finset.univ : Finset (Fin 16)) Φ = bigSep (Finset.range 16) Ψ := by
  rw [← fin_range 16 Ψ]; exact bigSep_congr fun j _ => h j

theorem csem_dma (k : Fin 70) (s : DmaSem sig) (h : k.val = s.val + 1) : csem k = .dma s := by
  unfold csem
  rw [dif_neg (by omega)]
  exact congrArg SemLoc.dma (Fin.ext (by show k.val - 1 = s.val; omega))

omit [FloatOps F] in

theorem cells_split (Ψ : SemLoc sig → sProp 𝕄) :
    bigSep (Finset.univ : Finset (Fin 70)) (fun k => Ψ (csem k))
      = iprop(Ψ (.reg barS) ∗ (bigSep Finset.univ fun k : Fin 4 => Ψ (.dma (ldS k))) ∗ Ψ (.dma cpS)
          ∗ (bigSep Finset.univ fun j : Fin 16 => Ψ (.dma (s1S j))) ∗ (bigSep Finset.univ fun j : Fin 16 => Ψ (.dma (r1S j)))
          ∗ (bigSep Finset.univ fun j : Fin 16 => Ψ (.dma (s2S j))) ∗ (bigSep Finset.univ fun j : Fin 16 => Ψ (.dma (r2S j)))) := by
  rw [bigSep_fin_split 1 69 rfl, bigSep_fin_split 4 65 rfl, bigSep_fin_split 1 64 rfl, bigSep_fin_split 16 48 rfl,
    bigSep_fin_split 16 32 rfl, bigSep_fin_split 16 16 rfl]
  rw [bigSep_univ_of_subsingleton (0 : Fin 1), bigSep_univ_of_subsingleton (0 : Fin 1)]
  refine congrArg₂ _ rfl (congrArg₂ _ (bigSep_congr fun k _ => congrArg Ψ ?_) (congrArg₂ _ (congrArg Ψ ?_)
    (congrArg₂ _ (bigSep_congr fun j _ => congrArg Ψ ?_) (congrArg₂ _ (bigSep_congr fun j _ => congrArg Ψ ?_)
      (congrArg₂ _ (bigSep_congr fun j _ => congrArg Ψ ?_) (bigSep_congr fun j _ => congrArg Ψ ?_))))))
  · exact csem_dma _ (ldS k) (by show 1 + k.val = k.val + 1; omega)
  · exact csem_dma _ cpS (by show 1 + (4 + 0) = 4 + 1; rfl)
  · exact csem_dma _ (s1S j) (by show 1 + (4 + (1 + j.val)) = 5 + j.val + 1; omega)
  · exact csem_dma _ (r1S j) (by show 1 + (4 + (1 + (16 + j.val))) = 21 + j.val + 1; omega)
  · exact csem_dma _ (s2S j) (by show 1 + (4 + (1 + (16 + (16 + j.val)))) = 37 + j.val + 1; omega)
  · exact csem_dma _ (r2S j) (by show 1 + (4 + (1 + (16 + (16 + (16 + j.val))))) = 53 + j.val + 1; omega)

theorem positions_split (c : Dev nD) :
    (positions c : sProp 𝕄) ⊢ iprop(atPos ER (barC c) 0 ∅ 0 ∗ (bigSep (Finset.univ : Finset (Fin 4)) fun k => atPos ER (ldC c k) 0 ∅ 0) ∗ atPos ER (cpC c) 0 ∅ 0
      ∗ (bigSep (Finset.range 16) fun i => atPos ER (s1C c (f16 i)) 0 ∅ 0) ∗ (bigSep (Finset.range 16) fun i => atPos ER (r1C c (f16 i)) 0 ∅ 0)
      ∗ (bigSep (Finset.range 16) fun i => atPos ER (s2C c (f16 i)) 0 ∅ 0) ∗ (bigSep (Finset.range 16) fun i => atPos ER (r2C c (f16 i)) 0 ∅ 0)) := by
  unfold positions
  refine Entails.of_eq ((cells_split (F := F) (fun s => (atPos ER (((c : Thread nD τ), s) : GSem nD τ sig) 0 ∅ 0 : sProp 𝕄))).trans ?_)
  rw [fin16_range (fun j => (atPos ER (s1C c j) 0 ∅ 0 : sProp 𝕄)) (fun i => atPos ER (s1C c (f16 i)) 0 ∅ 0) (fun j => by simp only [f16_val]),
    fin16_range (fun j => (atPos ER (r1C c j) 0 ∅ 0 : sProp 𝕄)) (fun i => atPos ER (r1C c (f16 i)) 0 ∅ 0) (fun j => by simp only [f16_val]),
    fin16_range (fun j => (atPos ER (s2C c j) 0 ∅ 0 : sProp 𝕄)) (fun i => atPos ER (s2C c (f16 i)) 0 ∅ 0) (fun j => by simp only [f16_val]),
    fin16_range (fun j => (atPos ER (r2C c j) 0 ∅ 0 : sProp 𝕄)) (fun i => atPos ER (r2C c (f16 i)) 0 ∅ 0) (fun j => by simp only [f16_val])]

theorem payToks_split (c : Dev nD) :
    (payToks c : sProp 𝕄) ⊢ iprop(dutyTok ER (barC (yn c)) 0 false ∗ dutyTok ER (barC (xn c)) 0 true
      ∗ (bigSep (Finset.univ : Finset (Fin 4)) fun k => bigSep (Finset.Ico 0 6) fun r' => dutyTok ER (ldC c k) r' false)
      ∗ dutyTok ER (cpC c) 0 false
      ∗ (bigSep (Finset.range 16) fun i => iprop(dutyTok ER (s1C c (f16 i)) 0 false ∗ dutyTok ER (r1C (yn c) (f16 i)) 0 false))
      ∗ (bigSep (Finset.range 16) fun i => iprop(dutyTok ER (s2C c (f16 i)) 0 false ∗ dutyTok ER (r2C (xn c) (f16 i)) 0 false))) := by
  have hld : (bigSep Finset.univ fun kr : Fin 4 × Fin 6 => (dutyTok ER (ldC c kr.1) kr.2.val false : sProp 𝕄))
      = bigSep (Finset.univ : Finset (Fin 4)) fun k => bigSep (Finset.Ico 0 6) fun r' => dutyTok ER (ldC c k) r' false := by
    rw [bigSep_univ_prod]
    exact bigSep_congr fun k _ => (fin_range 6 (fun r' => (dutyTok ER (ldC c k) r' false : sProp 𝕄))).trans (ico_zero _ 6).symm
  unfold payToks
  rw [hld,
    fin16_range (fun j => (iprop(dutyTok ER (s1C c j) 0 false ∗ dutyTok ER (r1C (yn c) j) 0 false) : sProp 𝕄))
      (fun i => iprop(dutyTok ER (s1C c (f16 i)) 0 false ∗ dutyTok ER (r1C (yn c) (f16 i)) 0 false)) (fun j => by simp only [f16_val]),
    fin16_range (fun j => (iprop(dutyTok ER (s2C c j) 0 false ∗ dutyTok ER (r2C (xn c) j) 0 false) : sProp 𝕄))
      (fun i => iprop(dutyTok ER (s2C c (f16 i)) 0 false ∗ dutyTok ER (r2C (xn c) (f16 i)) 0 false)) (fun j => by simp only [f16_val])]

theorem creds_split (c : Dev nD) :
    (creds c : sProp 𝕄) ⊢ iprop(cred (tallyAt (barC c) () 2) ∗ (bigSep (Finset.range 16) fun i => cred (tallyAt (r1C c (f16 i)) () (chAmt i)))
      ∗ (bigSep (Finset.range 16) fun i => cred (tallyAt (r2C c (f16 i)) () (chAmt i)))) := by
  unfold creds
  rw [fin16_range (fun j => (cred (tallyAt (r1C c j) () (chAmt j.val)) : sProp 𝕄)) (fun i => cred (tallyAt (r1C c (f16 i)) () (chAmt i))) (fun j => by simp only [f16_val]),
    fin16_range (fun j => (cred (tallyAt (r2C c j) () (chAmt j.val)) : sProp 𝕄)) (fun i => cred (tallyAt (r2C c (f16 i)) () (chAmt i))) (fun j => by simp only [f16_val])]

theorem P1st_intro (c : Dev nD) :
    iprop((bigSep (Finset.range 16) fun i => iprop(dutyTok ER (s1C c (f16 i)) 0 false ∗ dutyTok ER (r1C (yn c) (f16 i)) 0 false))
        ∗ (bigSep (Finset.range 16) fun i => iprop(∃ f, oL (yn c) ↦[OS (yn c) (q1Lo c i) i]{fullShare} f)))
      ⊢ (P1st c 0 : sProp 𝕄) := by
  unfold P1st
  rw [ico_zero, range_none]
  simp only [bigSep_sep']
  iintro ⟨⟨HA, HB⟩, HC⟩
  isplitl
  · isplitl [HA]; · iexact HA
    isplitl [HB]; · iexact HB
    iexact HC
  · iempintro

theorem Bst_intro (c : Dev nD) :
    iprop((bigSep (Finset.range 16) fun i => cred (tallyAt (r1C c (f16 i)) () (chAmt i)))
        ∗ (bigSep (Finset.range 16) fun i => atPos ER (r1C c (f16 i)) 0 ∅ 0)
        ∗ (bigSep (Finset.range 16) fun i => iprop(dutyTok ER (s2C c (f16 i)) 0 false ∗ dutyTok ER (r2C (xn c) (f16 i)) 0 false))
        ∗ (bigSep (Finset.range 16) fun i => iprop(∃ f, oL (xn c) ↦[OS (xn c) (q2Lo c i) i]{fullShare} f)))
      ⊢ (Bst c 0 : sProp 𝕄) := by
  unfold Bst
  rw [ico_zero, range_none]
  simp only [bigSep_sep']
  iintro ⟨HA, HB, ⟨HC, HD⟩, HE⟩
  isplitl
  · isplitl [HA]; · iexact HA
    isplitl [HB]; · iexact HB
    isplitl [HC]; · iexact HC
    isplitl [HD]; · iexact HD
    iexact HE
  · iempintro

theorem Cst_intro (c : Dev nD) :
    iprop((bigSep (Finset.range 16) fun i => cred (tallyAt (r2C c (f16 i)) () (chAmt i)))
        ∗ (bigSep (Finset.range 16) fun i => atPos ER (r2C c (f16 i)) 0 ∅ 0))
      ⊢ (Cst m c 0 : sProp 𝕄) := by
  unfold Cst
  rw [ico_zero, range_none]
  simp only [bigSep_sep']
  iintro ⟨HA, HB⟩
  isplitl
  · isplitl [HA]; · iexact HA
    iexact HB
  · iempintro

theorem Dst_intro (c : Dev nD) :
    iprop(P1st c 16 ∗ Bst c 16 ∗ (bigSep (Finset.range 16) fun i => atPos ER (s1C c (f16 i)) 0 ∅ 0)
        ∗ (bigSep (Finset.range 16) fun i => atPos ER (s2C c (f16 i)) 0 ∅ 0))
      ⊢ (iprop(Dst m c 0 ∗ bigSep (Finset.range 16) fun i => atPos ER (r1C c (f16 i)) 1 ∅ 0) : sProp 𝕄) := by
  unfold P1st Bst Dst
  rw [ico_done, ico_done, ico_zero, range_none]
  simp only [bigSep_sep']
  iintro ⟨⟨-, HC1⟩, ⟨-, HR1, HC2⟩, HS1, HS2⟩
  isplitr [HR1]
  · isplitl
    · isplitl [HC1]; · iexact HC1
      isplitl [HS1]; · iexact HS1
      isplitl [HC2]; · iexact HC2
      iexact HS2
    · iempintro
  · iexact HR1

theorem MnA_intro (c : Dev nD) (fm : Buf (Elt F) (mL c)) : (mL c ↦{fullShare} fm : sProp 𝕄) ⊢ MnA m c fm 0 := by
  unfold MnA
  rw [ico_zero, range_none, mine_tile c fullShare fm, fin_range 24 (fun i => (mL c ↦[MS c i]{fullShare} fm : sProp 𝕄))]
  iintro H
  isplitl
  · iexact H
  · iempintro

theorem MnA_to_B (c : Dev nD) (fm : Buf (Elt F) (mL c)) : (MnA m c fm 16 : sProp 𝕄) ⊢ MnB m c fm 16 := by
  unfold MnA MnB
  rw [ico_done]
  iintro ⟨H1, H2⟩
  isplitl [H1]; · iexact H1
  isplitl [H2]; · iexact H2
  iempintro

theorem out_split (c : Dev nD) (fo : Buf (Elt F) (oL c)) :
    (oL c ↦{fullShare} fo : sProp 𝕄) ⊢ iprop((oL c ↦[OB c]{fullShare} fo)
      ∗ (bigSep (Finset.range 16) fun i => oL c ↦[OS c (q2Lo c i) i]{fullShare} fo)
      ∗ (bigSep (Finset.range 16) fun i => oL c ↦[OS c (q2Lo (xn c) i) i]{fullShare} fo)) := by
  rw [out_tile c fullShare fo, fin_range 16 (fun i => (oL c ↦[OS c (q2Lo c i) i]{fullShare} fo : sProp 𝕄)),
    fin_range 16 (fun i => (oL c ↦[OS c (q2Lo (xn c) i) i]{fullShare} fo : sProp 𝕄))]

theorem stg_split (c : Dev nD) (fs : Buf (Elt F) (sL c)) :
    (sL c ↦{fullShare} fs : sProp 𝕄) ⊢ bigSep (Finset.univ : Finset (Fin 4)) fun k => iprop(∃ f, sL c ↦[SS c k.val]{fullShare} f) := by
  rw [stg_tile c fullShare fs]
  refine bigSep_mono fun k _ => ?_
  have h : (sL c ↦[SS c k.val]{fullShare} fs : sProp 𝕄) ⊢ iprop(∃ f, sL c ↦[SS c k.val]{fullShare} f) := by
    iintro H
    iexists fs
    iexact H
  exact h

end Cert.KernelIdeal.Hand
end
-- ==== Proof.Sched.lean ====
import proofs.«900106_g7700000000000107_dist_ag_v7x_xy2x2_y_m8192_n1024_bf16_1_alg».proof.Proof.Proto

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem duties_bar (c : Dev nD) : (Rd (F := F) m).duties (barC c) 0 = Finset.univ := by
  dsimp only [Rd]; rw [if_pos rfl, ck_bar]; exact if_pos rfl
theorem duties_ld (c : Dev nD) (k : Fin 4) (r : ℕ) (h : r < 6) : (Rd (F := F) m).duties (ldC c k) r = {false} := by
  dsimp only [Rd]; rw [if_pos rfl, ck_ld]; exact if_pos h
theorem duties_cp (c : Dev nD) : (Rd (F := F) m).duties (cpC c) 0 = {false} := by
  dsimp only [Rd]; rw [if_pos rfl, ck_cp]; exact if_pos rfl
theorem duties_s1 (c : Dev nD) (j : Fin 16) : (Rd (F := F) m).duties (s1C c j) 0 = {false} := by
  dsimp only [Rd]; rw [if_pos rfl, ck_s1]; exact if_pos rfl
theorem duties_r1 (c : Dev nD) (j : Fin 16) : (Rd (F := F) m).duties (r1C c j) 0 = {false} := by
  dsimp only [Rd]; rw [if_pos rfl, ck_r1]; exact if_pos rfl
theorem duties_s2 (c : Dev nD) (j : Fin 16) : (Rd (F := F) m).duties (s2C c j) 0 = {false} := by
  dsimp only [Rd]; rw [if_pos rfl, ck_s2]; exact if_pos rfl
theorem duties_r2 (c : Dev nD) (j : Fin 16) : (Rd (F := F) m).duties (r2C c j) 0 = {false} := by
  dsimp only [Rd]; rw [if_pos rfl, ck_r2]; exact if_pos rfl

theorem duties_ld_later (c : Dev nD) (k : Fin 4) : ∀ r, 6 ≤ r → (Rd (F := F) m).duties (ldC c k) r = ∅ := fun r hr => by
  dsimp only [Rd]; rw [if_pos rfl, ck_ld]; exact if_neg (by omega)
theorem duties_cp_later (c : Dev nD) : ∀ r, 1 ≤ r → (Rd (F := F) m).duties (cpC c) r = ∅ := fun r hr => by
  dsimp only [Rd]; rw [if_pos rfl, ck_cp]; exact if_neg (by omega)
theorem duties_s1_later (c : Dev nD) (j : Fin 16) : ∀ r, 1 ≤ r → (Rd (F := F) m).duties (s1C c j) r = ∅ := fun r hr => by
  dsimp only [Rd]; rw [if_pos rfl, ck_s1]; exact if_neg (by omega)
theorem duties_r1_later (c : Dev nD) (j : Fin 16) : ∀ r, 1 ≤ r → (Rd (F := F) m).duties (r1C c j) r = ∅ := fun r hr => by
  dsimp only [Rd]; rw [if_pos rfl, ck_r1]; exact if_neg (by omega)
theorem duties_s2_later (c : Dev nD) (j : Fin 16) : ∀ r, 1 ≤ r → (Rd (F := F) m).duties (s2C c j) r = ∅ := fun r hr => by
  dsimp only [Rd]; rw [if_pos rfl, ck_s2]; exact if_neg (by omega)
theorem duties_r2_later (c : Dev nD) (j : Fin 16) : ∀ r, 1 ≤ r → (Rd (F := F) m).duties (r2C c j) r = ∅ := fun r hr => by
  dsimp only [Rd]; rw [if_pos rfl, ck_r2]; exact if_neg (by omega)

theorem amount_bar (c : Dev nD) (d : Bool) : (Rd (F := F) m).amount (barC c) 0 d = 1 := by
  dsimp only [Rd]; rw [ck_bar]
theorem amount_ld (c : Dev nD) (k : Fin 4) (r : ℕ) (h : r < 6) (d : Bool) : (Rd (F := F) m).amount (ldC c k) r d = ldAmt (4 * r + k.val) := by
  dsimp only [Rd]; rw [ck_ld]; exact if_pos h
theorem amount_cp (c : Dev nD) (d : Bool) : (Rd (F := F) m).amount (cpC c) 0 d = cpAmt := by
  dsimp only [Rd]; rw [ck_cp]
theorem amount_s1 (c : Dev nD) (j : Fin 16) (d : Bool) : (Rd (F := F) m).amount (s1C c j) 0 d = chAmt j.val := by
  dsimp only [Rd]; rw [ck_s1]
theorem amount_r1 (c : Dev nD) (j : Fin 16) (d : Bool) : (Rd (F := F) m).amount (r1C c j) 0 d = chAmt j.val := by
  dsimp only [Rd]; rw [ck_r1]
theorem amount_s2 (c : Dev nD) (j : Fin 16) (d : Bool) : (Rd (F := F) m).amount (s2C c j) 0 d = chAmt j.val := by
  dsimp only [Rd]; rw [ck_s2]
theorem amount_r2 (c : Dev nD) (j : Fin 16) (d : Bool) : (Rd (F := F) m).amount (r2C c j) 0 d = chAmt j.val := by
  dsimp only [Rd]; rw [ck_r2]

theorem expect_bar (c : Dev nD) : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
theorem expect_ld (c : Dev nD) (k : Fin 4) (r : ℕ) (h : r < 6) : (Rd (F := F) m).expect (ldC c k) r = ldAmt (4 * r + k.val) := by
  unfold Schedule.expect Schedule.amountOf; rw [duties_ld m c k r h, Finset.sum_singleton, amount_ld m c k r h]

theorem expect_of_single {g : GSem nD τ sig} {r : ℕ} {d : Bool} {N : ℕ}
    (hd : (Rd (F := F) m).duties g r = {d}) (ha : (Rd (F := F) m).amount g r d = N) : (Rd (F := F) m).expect g r = N := by
  unfold Schedule.expect Schedule.amountOf
  rw [hd, Finset.sum_singleton, ha]
theorem expect_cp (c : Dev nD) : (Rd (F := F) m).expect (cpC c) 0 = cpAmt :=
  expect_of_single m (duties_cp m c) (amount_cp m c false)
theorem expect_s1 (c : Dev nD) (j : Fin 16) : (Rd (F := F) m).expect (s1C c j) 0 = chAmt j.val := by
  unfold Schedule.expect Schedule.amountOf; rw [duties_s1, Finset.sum_singleton, amount_s1]
theorem expect_r1 (c : Dev nD) (j : Fin 16) : (Rd (F := F) m).expect (r1C c j) 0 = chAmt j.val := by
  unfold Schedule.expect Schedule.amountOf; rw [duties_r1, Finset.sum_singleton, amount_r1]
theorem expect_s2 (c : Dev nD) (j : Fin 16) : (Rd (F := F) m).expect (s2C c j) 0 = chAmt j.val := by
  unfold Schedule.expect Schedule.amountOf; rw [duties_s2, Finset.sum_singleton, amount_s2]
theorem expect_r2 (c : Dev nD) (j : Fin 16) : (Rd (F := F) m).expect (r2C c j) 0 = chAmt j.val := by
  unfold Schedule.expect Schedule.amountOf; rw [duties_r2, Finset.sum_singleton, amount_r2]

theorem payload_bar_true (c : Dev nD) : (Rd (F := F) m).payload (barC c) 0 true = barPayT c := by
  dsimp only [Rd]; rw [ck_bar]; exact if_pos rfl
theorem payload_bar_false (c : Dev nD) : (Rd (F := F) m).payload (barC c) 0 false = barPayF c := by
  dsimp only [Rd]; rw [ck_bar]; exact if_neg Bool.false_ne_true
theorem payload_ld (c : Dev nD) (k : Fin 4) (r : ℕ) (d : Bool) : (Rd (F := F) m).payload (ldC c k) r d = ldPay m c k r := by
  dsimp only [Rd]; rw [ck_ld]
theorem payload_cp (c : Dev nD) (d : Bool) : (Rd (F := F) m).payload (cpC c) 0 d = cpPay m c := by
  dsimp only [Rd]; rw [ck_cp]
theorem payload_s1 (c : Dev nD) (j : Fin 16) (d : Bool) : (Rd (F := F) m).payload (s1C c j) 0 d = s1Pay m c j := by
  dsimp only [Rd]; rw [ck_s1]
theorem payload_r1 (c : Dev nD) (j : Fin 16) (d : Bool) : (Rd (F := F) m).payload (r1C c j) 0 d = r1Pay m c j := by
  dsimp only [Rd]; rw [ck_r1]
theorem payload_s2 (c : Dev nD) (j : Fin 16) (d : Bool) : (Rd (F := F) m).payload (s2C c j) 0 d = s2Pay m c j := by
  dsimp only [Rd]; rw [ck_s2]
theorem payload_r2 (c : Dev nD) (j : Fin 16) (d : Bool) : (Rd (F := F) m).payload (r2C c j) 0 d = r2Pay m c j := by
  dsimp only [Rd]; rw [ck_r2]

theorem rest_bar (c : Dev nD) :
    bigSep ((Rd (F := F) m).duties (barC c) 0 \ ∅) (fun d => (Rd (F := F) m).payload (barC c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_ld (c : Dev nD) (k : Fin 4) (r : ℕ) (h : r < 6) :
    bigSep ((Rd (F := F) m).duties (ldC c k) r \ ∅) (fun d => (Rd (F := F) m).payload (ldC c k) r d) = ldPay m c k r := by
  rw [Finset.sdiff_empty, duties_ld m c k r h, bigSep_singleton, payload_ld]
theorem rest_cp (c : Dev nD) :
    bigSep ((Rd (F := F) m).duties (cpC c) 0 \ ∅) (fun d => (Rd (F := F) m).payload (cpC c) 0 d) = cpPay m c := by
  rw [Finset.sdiff_empty, duties_cp, bigSep_singleton, payload_cp]
theorem rest_s1 (c : Dev nD) (j : Fin 16) :
    bigSep ((Rd (F := F) m).duties (s1C c j) 0 \ ∅) (fun d => (Rd (F := F) m).payload (s1C c j) 0 d) = s1Pay m c j := by
  rw [Finset.sdiff_empty, duties_s1, bigSep_singleton, payload_s1]
theorem rest_r1 (c : Dev nD) (j : Fin 16) :
    bigSep ((Rd (F := F) m).duties (r1C c j) 0 \ ∅) (fun d => (Rd (F := F) m).payload (r1C c j) 0 d) = r1Pay m c j := by
  rw [Finset.sdiff_empty, duties_r1, bigSep_singleton, payload_r1]
theorem rest_s2 (c : Dev nD) (j : Fin 16) :
    bigSep ((Rd (F := F) m).duties (s2C c j) 0 \ ∅) (fun d => (Rd (F := F) m).payload (s2C c j) 0 d) = s2Pay m c j := by
  rw [Finset.sdiff_empty, duties_s2, bigSep_singleton, payload_s2]
theorem rest_r2 (c : Dev nD) (j : Fin 16) :
    bigSep ((Rd (F := F) m).duties (r2C c j) 0 \ ∅) (fun d => (Rd (F := F) m).payload (r2C c j) 0 d) = r2Pay m c j := by
  rw [Finset.sdiff_empty, duties_r2, bigSep_singleton, payload_r2]

end Cert.KernelIdeal.Hand
end
-- ==== Proof.SchedInst.lean ====
import proofs.«900106_g7700000000000107_dist_ag_v7x_xy2x2_y_m8192_n1024_bf16_1_alg».proof.Proof.Sched

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

instance Rd_payload_storable (g : GSem nD τ sig) (r : ℕ) (d : Bool) :
    BI.Storable (upEmb : UEmb _ 𝕄) ((Rd (F := F) m).payload g r d) := by
  dsimp only [Rd]
  cases hck : ck g.2 with
  | bar => dsimp only; unfold barPayT barPayF; split <;> infer_instance
  | ld k => dsimp only; unfold ldPay; infer_instance
  | cp => dsimp only; unfold cpPay; infer_instance
  | s1 j => dsimp only; unfold s1Pay; infer_instance
  | r1 j => dsimp only; unfold r1Pay; infer_instance
  | s2 j => dsimp only; unfold s2Pay; infer_instance
  | r2 j => dsimp only; unfold r2Pay; infer_instance

end Cert.KernelIdeal.Hand
end
-- ==== Proof.Ghost.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.SchedInst

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

def ksem : SemLoc sig → Fin 70
  | .reg _ => 0
  | .dma s => ⟨s.val + 1, by have : s.val < 69 := s.isLt; omega⟩

theorem ksem_csem (k : Fin 70) : ksem (csem k) = k := by
  unfold csem; split
  · next h => exact Fin.ext h.symm
  · next h => exact Fin.ext (by show k.val - 1 + 1 = k.val; omega)

theorem kcell_injective : Function.Injective (kcell : Dev nD × Fin 70 → GSem nD τ sig) := by
  rintro ⟨c, k⟩ ⟨c', k'⟩ h
  have h1 : c = c' := congrArg (fun g : GSem nD τ sig => g.1.1) h
  have h2 : k = k' := by
    rw [← ksem_csem k, ← ksem_csem k']; exact congrArg (fun g : GSem nD τ sig => ksem g.2) h
  rw [h1, h2]

def allCells : Finset (GSem nD τ sig) := Finset.univ.map ⟨kcell, kcell_injective⟩

theorem csem_succ (k : Fin 69) : csem k.succ = osem k := by
  unfold csem; rw [dif_neg (by simp)]; rfl
abbrev TI : Type := Bool ⊕ (Fin 4 × Fin 6) ⊕ Unit ⊕ Fin 16 ⊕ Fin 16 ⊕ Fin 16 ⊕ Fin 16

def tokOf (ci : Dev nD × TI) : GSem nD τ sig × ℕ × Bool := match ci.2 with
  | .inl d => (barC ci.1, 0, d)
  | .inr (.inl kr) => (ldC ci.1 kr.1, kr.2.val, false)
  | .inr (.inr (.inl _)) => (cpC ci.1, 0, false)
  | .inr (.inr (.inr (.inl j))) => (s1C ci.1 j, 0, false)
  | .inr (.inr (.inr (.inr (.inl j)))) => (r1C ci.1 j, 0, false)
  | .inr (.inr (.inr (.inr (.inr (.inl j))))) => (s2C ci.1 j, 0, false)
  | .inr (.inr (.inr (.inr (.inr (.inr j))))) => (r2C ci.1 j, 0, false)

def untok (x : GSem nD τ sig × ℕ × Bool) : Dev nD × TI := (x.1.1.1, match ck x.1.2 with
  | .bar => .inl x.2.2
  | .ld k => .inr (.inl (k, ⟨x.2.1 % 6, Nat.mod_lt _ (by decide)⟩))
  | .cp => .inr (.inr (.inl ()))
  | .s1 j => .inr (.inr (.inr (.inl j)))
  | .r1 j => .inr (.inr (.inr (.inr (.inl j))))
  | .s2 j => .inr (.inr (.inr (.inr (.inr (.inl j)))))
  | .r2 j => .inr (.inr (.inr (.inr (.inr (.inr j))))))

theorem untok_tokOf (ci : Dev nD × TI) : untok (tokOf ci) = ci := by
  obtain ⟨c, i⟩ := ci
  rcases i with d | ⟨k, r⟩ | u | j | j | j | j
  · show untok (barC c, 0, d) = _
    unfold untok; dsimp only; rw [ck_bar]
  · show untok (ldC c k, r.val, false) = _
    have hr : (⟨r.val % 6, Nat.mod_lt _ (by decide)⟩ : Fin 6) = r := Fin.ext (Nat.mod_eq_of_lt r.isLt)
    unfold untok; dsimp only; rw [ck_ld]; dsimp only; rw [hr]
  · show untok (cpC c, 0, false) = _
    unfold untok; dsimp only; rw [ck_cp]
  · show untok (s1C c j, 0, false) = _
    unfold untok; dsimp only; rw [ck_s1]
  · show untok (r1C c j, 0, false) = _
    unfold untok; dsimp only; rw [ck_r1]
  · show untok (s2C c j, 0, false) = _
    unfold untok; dsimp only; rw [ck_s2]
  · show untok (r2C c j, 0, false) = _
    unfold untok; dsimp only; rw [ck_r2]

theorem tokOf_injective : Function.Injective (tokOf : Dev nD × TI → GSem nD τ sig × ℕ × Bool) :=
  Function.LeftInverse.injective untok_tokOf

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((dutyTok ER (barC c) 0 false ∗ dutyTok ER (barC c) 0 true)
    ∗ (bigSep Finset.univ fun kr : Fin 4 × Fin 6 => dutyTok ER (ldC c kr.1) kr.2.val false)
    ∗ dutyTok ER (cpC c) 0 false
    ∗ (bigSep Finset.univ fun j : Fin 16 => dutyTok ER (s1C c j) 0 false)
    ∗ (bigSep Finset.univ fun j : Fin 16 => dutyTok ER (r1C c j) 0 false)
    ∗ (bigSep Finset.univ fun j : Fin 16 => dutyTok ER (s2C c j) 0 false)
    ∗ (bigSep Finset.univ fun j : Fin 16 => dutyTok ER (r2C c j) 0 false))

def G (c : Dev nD) : sProp 𝕄 :=
  iprop((bigSep Finset.univ fun k : Fin 70 => roundState ER (Rd m) (kcell (c, k)) 0)
    ∗ (bigSep Finset.univ fun k : Fin 70 => iprop(atPos ER (kcell (c, k)) 0 ∅ 0 ∗ reached ER (kcell (c, k)) 0)) ∗ toks c)

def G' (c : Dev nD) : sProp 𝕄 := iprop(∃ K, ghost m K c)

omit [FloatOps F] in
theorem bigSep_toks (c : Dev nD) :
    (bigSep Finset.univ fun i : TI => (dutyTok ER (tokOf (c, i)).1 (tokOf (c, i)).2.1 (tokOf (c, i)).2.2 : sProp 𝕄)) = toks c := by
  rw [bigSep_univ_sum, bigSep_univ_sum, bigSep_univ_sum, bigSep_univ_sum, bigSep_univ_sum, bigSep_univ_sum,
    bigSep_univ_eq_bigSepL [false, true] (by decide) (by decide), bigSepL_cons_cons, bigSepL_singleton,
    bigSep_univ_of_subsingleton ()]
  rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 70 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => bigSep_toks c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_cells m) $$ HX with HG
  imodintro
  isplitl [HP] <;> iassumption

omit [FloatOps F] in
theorem bigSep_fin_succ (n : ℕ) (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]
  rfl

omit [FloatOps F] in

theorem ownSems0_eq (c : Dev nD) : (Pipeline.ownSems0 (Ix := Unit) (Name := ℕ) (U := UU) (Lvl := ℕ) (Val := Elt F) (τ := τ) osem c : sProp 𝕄)
    = bigSep Finset.univ fun k : Fin 69 => semVal (((c : Thread nD τ), osem k) : GSem nD τ sig) 0 := rfl
omit [FloatOps F] in

theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 70 => semVal (kcell (c, k)) 0 : sProp 𝕄) := by
  rw [ownSems0_eq, unscopedSems0_eq, bigSep_fin_succ 69 (fun k : Fin 70 => (semVal (kcell (c, k)) 0 : sProp 𝕄))]
  iintro ⟨HS, HB⟩
  isplitl [HB]; · iexact HB
  iapply (Entails.of_eq (bigSep_congr fun k _ => by
    show semVal (((c : Thread nD τ), osem k) : GSem nD τ sig) 0 = semVal (((c : Thread nD τ), csem k.succ) : GSem nD τ sig) 0
    rw [csem_succ]))
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 70 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 70 => semVal (kcell (c, k)) 0) ∗ bigSep Finset.univ fun k : Fin 70 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × Fin 70 → ℕ) : BI.Persistent (records m K) := by unfold records; infer_instance

theorem inv_at (K : Dev nD × Fin 70 → ℕ) (ck : Dev nD × Fin 70) : records m K ⊢ cellInv ER (Rd m) (K ck) (kcell ck) := by
  have h : (bigSep Finset.univ fun ck : Dev nD × Fin 70 => (cellInv ER (Rd m) (K ck) (kcell ck) : sProp 𝕄)) ⊢ cellInv ER (Rd m) (K ck) (kcell ck) :=
    bigSep_elim (Finset.mem_univ ck)
  unfold records
  iintro ⟨HI, -⟩
  iapply h; iexact HI
theorem reached_at (K : Dev nD × Fin 70 → ℕ) (ck : Dev nD × Fin 70) : records m K ⊢ reached ER (kcell ck) 0 := by
  have h : (bigSep Finset.univ fun ck : Dev nD × Fin 70 => (reached ER (kcell ck) 0 : sProp 𝕄)) ⊢ reached ER (kcell ck) 0 :=
    bigSep_elim (Finset.mem_univ ck)
  unfold records
  iintro ⟨-, HR⟩
  iapply h; iexact HR

theorem csem_ksem : ∀ s : SemLoc sig, csem (ksem s) = s := by decide
theorem kcell_of (g : GSem nD τ sig) (hg : g.1.2 = .tc) : g = kcell (g.1.1, ksem g.2) := by
  obtain ⟨⟨d, p⟩, s⟩ := g
  dsimp only at hg; subst hg
  show _ = ((d : Thread nD τ), csem (ksem s)); rw [csem_ksem]

theorem inv_of (K : Dev nD × Fin 70 → ℕ) (g : GSem nD τ sig) (hg : g.1.2 = .tc) : records m K ⊢ iprop(∃ κ, cellInv ER (Rd m) κ g) := by
  rw [kcell_of g hg]
  iintro H; iexists (K (g.1.1, ksem g.2)); iapply (inv_at m K (g.1.1, ksem g.2)); iexact H
theorem reached0_of (K : Dev nD × Fin 70 → ℕ) (g : GSem nD τ sig) (hg : g.1.2 = .tc) : records m K ⊢ reached ER g 0 := by
  rw [kcell_of g hg]; exact reached_at m K _

def linear (c : Dev nD) : sProp 𝕄 := iprop(positions c ∗ payToks c)

theorem ghost_intro (K : Dev nD × Fin 70 → ℕ) (c : Dev nD) : iprop(records m K ∗ linear c) ⊢ G' m c := by
  unfold linear G' ghost
  iintro ⟨HR, Hp, Ht⟩
  iexists K
  isplitl [HR]; · iexact HR
  isplitl [Hp] <;> iassumption

omit [FloatOps F] in

theorem toks_around : (bigSep Finset.univ fun c : Dev nD => (toks c : sProp 𝕄)) ⊢ bigSep Finset.univ fun c : Dev nD => payToks c := by
  have hp (c : Dev nD) : (payToks c : sProp 𝕄)
      = iprop(dutyTok ER (barC (yn c)) 0 false ∗ dutyTok ER (barC (xn c)) 0 true
        ∗ (bigSep Finset.univ fun kr : Fin 4 × Fin 6 => dutyTok ER (ldC c kr.1) kr.2.val false)
        ∗ dutyTok ER (cpC c) 0 false
        ∗ ((bigSep Finset.univ fun j : Fin 16 => dutyTok ER (s1C c j) 0 false) ∗ (bigSep Finset.univ fun j : Fin 16 => dutyTok ER (r1C (yn c) j) 0 false))
        ∗ ((bigSep Finset.univ fun j : Fin 16 => dutyTok ER (s2C c j) 0 false) ∗ (bigSep Finset.univ fun j : Fin 16 => dutyTok ER (r2C (xn c) j) 0 false))) := by
    unfold payToks; rw [bigSep_sep', bigSep_sep']
  rw [bigSep_congr (s := Finset.univ) fun c _ => hp c]
  unfold toks
  simp only [bigSep_sep']
  rw [bigSep_univ_equiv yEquiv (fun c : Dev nD => (dutyTok ER (barC c) 0 false : sProp 𝕄)),
    bigSep_univ_equiv xEquiv (fun c : Dev nD => (dutyTok ER (barC c) 0 true : sProp 𝕄)),
    bigSep_univ_equiv yEquiv (fun c : Dev nD => (bigSep Finset.univ fun j : Fin 16 => dutyTok ER (r1C c j) 0 false : sProp 𝕄)),
    bigSep_univ_equiv xEquiv (fun c : Dev nD => (bigSep Finset.univ fun j : Fin 16 => dutyTok ER (r2C c j) 0 false : sProp 𝕄))]
  iintro ⟨⟨HbF, HbT⟩, Hld, Hcp, Hs1, Hr1, Hs2, Hr2⟩
  isplitl [HbF]; · iexact HbF
  isplitl [HbT]; · iexact HbT
  isplitl [Hld]; · iexact Hld
  isplitl [Hcp]; · iexact Hcp
  isplitl [Hs1 Hr1]
  · isplitl [Hs1]; · iexact Hs1
    iexact Hr1
  isplitl [Hs2]; · iexact Hs2
  iexact Hr2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 70 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 70 => iprop(∃ κ : ℕ, cellInv ER (Rd m) κ (kcell ck))),
    bigSep_congr (s := Finset.univ) (fun (c : Dev nD) _ => bigSep_sep' Finset.univ (fun k : Fin 70 => (atPos ER (kcell (c, k)) 0 ∅ 0 : sProp 𝕄)) (fun k => reached ER (kcell (c, k)) 0)),
    bigSep_sep', ← bigSep_univ_prod (fun ck : Dev nD × Fin 70 => (reached ER (kcell ck) 0 : sProp 𝕄))]
  iintro ⟨HI, ⟨Hat, #HR⟩, Htok⟩
  ihave HK := (BI.bigSep_exists_pi Finset.univ (fun (ck : Dev nD × Fin 70) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand
end
-- ==== Proof.StepPre.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import proofs.«900106_g7700000000000107_dist_ag_v7x_xy2x2_y_m8192_n1024_bf16_1_alg».proof.Proof.Sched
import proofs.«900106_g7700000000000107_dist_ag_v7x_xy2x2_y_m8192_n1024_bf16_1_alg».proof.Proof.Ghost

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem barPayF_intro (c e : Dev nD) (he : yn e = c) (fo : Buf (Elt F) (oL c)) :
    (bigSep (Finset.range 16) fun i => oL c ↦[OS c (q1Lo e i) i]{fullShare} fo : sProp 𝕄) ⊢ barPayF e := by
  subst he
  unfold barPayF
  rw [fin_range 16 (fun i => iprop(∃ f, oL (yn e) ↦[OS (yn e) (q1Lo e i) i]{fullShare} f))]
  exact bigSep_mono fun i _ =>
    (show (oL (yn e) ↦[OS (yn e) (q1Lo e i) i]{fullShare} fo : sProp 𝕄) ⊢ iprop(∃ f, oL (yn e) ↦[OS (yn e) (q1Lo e i) i]{fullShare} f) from by
      iintro H; iexists fo; iexact H)

theorem barPayT_intro (c e : Dev nD) (he : xn e = c) (fo : Buf (Elt F) (oL c)) :
    (bigSep (Finset.range 16) fun i => oL c ↦[OS c (q2Lo e i) i]{fullShare} fo : sProp 𝕄) ⊢ barPayT e := by
  subst he
  unfold barPayT
  rw [fin_range 16 (fun i => iprop(∃ f, oL (xn e) ↦[OS (xn e) (q2Lo e i) i]{fullShare} f))]
  exact bigSep_mono fun i _ =>
    (show (oL (xn e) ↦[OS (xn e) (q2Lo e i) i]{fullShare} fo : sProp 𝕄) ⊢ iprop(∃ f, oL (xn e) ↦[OS (xn e) (q2Lo e i) i]{fullShare} f) from by
      iintro H; iexists fo; iexact H)

theorem step_sigY (K : Dev nD × Fin 70 → ℕ) (c : Dev nD) (O : CellTallies nD τ sig Unit) (fo : Buf (Elt F) (oL c))
    {d : Dev nD} {sem : Sem sig} {n : ℕ} (hd : d = yn c) (hsem : sem = barS := by exact rfl) (hn : n = 1 := by exact rfl)
    {α : Type} {k : PUnit → Prog (TpuEff nD τ sig (Elt F) Λ₀ .tc) α} {Q : α → sProp 𝕄} :
    iprop(records m K ∗ Ow c (O + tallyAt (barC (yn c)) () 1) ∗ dutyTok ER (barC (yn c)) 0 false
        ∗ (bigSep (Finset.range 16) fun i => oL c ↦[OS c (q2Lo c i) i]{fullShare} fo))
      ⊢ iprop((Ow c O -∗ wp frame (wpE (defs₀ (F := F)) 𝒱₀ c none) Set.univ (k ⟨⟩) Q)
          -∗ wp frame (wpE (defs₀ (F := F)) 𝒱₀ c none) Set.univ (.op (.semSignal (d : Thread nD τ) sem n) k) Q) := by
  subst hd hsem hn
  unfold Ow
  have hpay := barPayF_intro (F := F) c (yn c) (yn_yn c) fo
  simp only [q1Lo_yn] at hpay
  iintro ⟨#Hrec, ⟨%W, HO⟩, Htok, Hout⟩ Hk
  ihave Hinv := (inv_of m K (barC (yn c)) rfl) $$ Hrec
  icases Hinv with ⟨%κ, #Hinv⟩
  ihave Hr := (reached0_of m K (barC (yn c)) rfl) $$ Hrec
  iapply (Rounds.wp_signal 𝒱₀ ER (Rd m) (c : Thread nD τ) none (dst := (yn c : Thread nD τ)) (sem := barS) (r := 0) (d := false) (κ := κ)
      (by rw [duties_bar]; exact Finset.mem_univ _) (amount_bar m (yn c) false) () O rfl (W := W)) $$ [HO Htok Hout Hr] [Hk]
  · isplitr; · iexact Hinv
    isplitl [HO]; · iexact HO
    isplitl [Htok]; · iexact Htok
    isplitl [Hout]
    · rw [payload_bar_false]
      iapply hpay $$ Hout
    · iexact Hr
  · iintro HO
    iapply Hk
    iexists W
    iexact HO

theorem step_sigX (K : Dev nD × Fin 70 → ℕ) (c : Dev nD) (O : CellTallies nD τ sig Unit) (fo : Buf (Elt F) (oL c))
    {d : Dev nD} {sem : Sem sig} {n : ℕ} (hd : d = xn c) (hsem : sem = barS := by exact rfl) (hn : n = 1 := by exact rfl)
    {α : Type} {k : PUnit → Prog (TpuEff nD τ sig (Elt F) Λ₀ .tc) α} {Q : α → sProp 𝕄} :
    iprop(records m K ∗ Ow c (O + tallyAt (barC (xn c)) () 1) ∗ dutyTok ER (barC (xn c)) 0 true
        ∗ (bigSep (Finset.range 16) fun i => oL c ↦[OS c (q2Lo (xn c) i) i]{fullShare} fo))
      ⊢ iprop((Ow c O -∗ wp frame (wpE (defs₀ (F := F)) 𝒱₀ c none) Set.univ (k ⟨⟩) Q)
          -∗ wp frame (wpE (defs₀ (F := F)) 𝒱₀ c none) Set.univ (.op (.semSignal (d : Thread nD τ) sem n) k) Q) := by
  subst hd hsem hn
  unfold Ow
  have hpay := barPayT_intro (F := F) c (xn c) (xn_xn c) fo
  iintro ⟨#Hrec, ⟨%W, HO⟩, Htok, Hout⟩ Hk
  ihave Hinv := (inv_of m K (barC (xn c)) rfl) $$ Hrec
  icases Hinv with ⟨%κ, #Hinv⟩
  ihave Hr := (reached0_of m K (barC (xn c)) rfl) $$ Hrec
  iapply (Rounds.wp_signal 𝒱₀ ER (Rd m) (c : Thread nD τ) none (dst := (xn c : Thread nD τ)) (sem := barS) (r := 0) (d := true) (κ := κ)
      (by rw [duties_bar]; exact Finset.mem_univ _) (amount_bar m (xn c) true) () O rfl (W := W)) $$ [HO Htok Hout Hr] [Hk]
  · isplitr; · iexact Hinv
    isplitl [HO]; · iexact HO
    isplitl [Htok]; · iexact Htok
    isplitl [Hout]
    · rw [payload_bar_true]
      iapply hpay $$ Hout
    · iexact Hr
  · iintro HO
    iapply Hk
    iexists W
    iexact HO

theorem x_take_any (c : Dev nD) (n : ℕ) (S : Finset (Idx (xL c))) (f : Buf (Elt F) (xL c)) :
    (xL c ↦{xRem n} f : sProp 𝕄) ⊢ iprop((xL c ↦[S]{(xRem n).left} f) ∗ (xL c ↦{xRem (n+1)} f)) := by
  have hsh : (xL c ↦{xRem n} f : sProp 𝕄) ⊢ iprop((xL c ↦{(xRem n).left} f) ∗ (xL c ↦{(xRem n).right} f)) :=
    (pointsTo_share (PosShare.mem_left_op_right (xRem n))).1
  have hsub : (xL c ↦{(xRem n).left} f : sProp 𝕄)
      ⊢ iprop((xL c ↦[S]{(xRem n).left} f) ∗ (xL c ↦[Finset.univ \ S]{(xRem n).left} f)) :=
    (pointsTo_split_subset (Finset.subset_univ S)).1
  refine hsh.trans ?_
  show iprop((xL c ↦{(xRem n).left} f) ∗ (xL c ↦{(xRem n).right} f))
    ⊢ (iprop((xL c ↦[S]{(xRem n).left} f) ∗ (xL c ↦{(xRem n).right} f)) : sProp 𝕄)
  iintro ⟨HL, HR⟩
  isplitl [HL]
  · ihave H := hsub $$ HL
    icases H with ⟨H, -⟩
    iexact H
  · iexact HR

theorem enq_val (c : Dev nD) (k : Fin 4) (j : ℕ)
    (inbX : ∀ a, (![ldLo c j, 0] : Fin 2 → ℕ) a + (![ldRows j, 1024] : Fin 2 → ℕ) a ≤ S8192x1024.size a)
    (hsX : ∀ a, (Rect.unit (s := S8192x1024) ![ldLo c j, 0] ![ldRows j, 1024] inbX).stride a = 1)
    (inbS : ∀ a, (![512 * k.val, 0] : Fin 2 → ℕ) a + (![ldRows j, 1024] : Fin 2 → ℕ) a ≤ S2048x1024.size a)
    (hsS : ∀ a, (Rect.unit (s := S2048x1024) ![512 * k.val, 0] ![ldRows j, 1024] inbS).stride a = 1)
    (f : Buf (Elt F) (sL c)) (p : ℕ) (q : Fin 1024) (hp : p < ldRows j) :
    ((stgM.slice (Rect.unit (s := S2048x1024) ![512 * k.val, 0] ![ldRows j, 1024] inbS) hsS).view.write (Elt F) f
        ((xM.slice (Rect.unit (s := S8192x1024) ![ldLo c j, 0] ![ldRows j, 1024] inbX) hsX).view.read (Elt F) (xs m c)) Finset.univ)
      (sIx c (512 * k.val + p) q) = xs m c (xIx c (ldLo c j + p) q) := by
  have hk := k.isLt
  have hle := ldRows_le j
  have hX0 := inbX 0
  have hX0' : ldLo c j + ldRows j ≤ 8192 := hX0
  have hS : sIx c (512 * k.val + p) q
      = (stgM.slice (Rect.unit (s := S2048x1024) ![512 * k.val, 0] ![ldRows j, 1024] inbS) hsS).view.emb (ValueIdx.ix2 ⟨p, hp⟩ q) := by
    funext a
    refine Fin.ext ?_
    match a with
    | ⟨0, _⟩ => show (512 * k.val + p) % 2048 = 512 * k.val + 1 * p; omega
    | ⟨1, _⟩ => show q.val = 0 + 1 * q.val; omega
  have hX : xIx c (ldLo c j + p) q
      = (xM.slice (Rect.unit (s := S8192x1024) ![ldLo c j, 0] ![ldRows j, 1024] inbX) hsX).view.emb (ValueIdx.ix2 ⟨p, hp⟩ q) := by
    funext a
    refine Fin.ext ?_
    match a with
    | ⟨0, _⟩ => show (ldLo c j + p) % 8192 = ldLo c j + 1 * p; omega
    | ⟨1, _⟩ => show q.val = 0 + 1 * q.val; omega
  rw [hS, View.write_emb_of_mem _ _ (Finset.mem_univ _), View.read_apply, hX]
  rfl

theorem enq_load (K : Dev nD × Fin 70 → ℕ) (c : Dev nD) (k : Fin 4) (r : ℕ) (hr : r < 6) (n : ℕ)
    {offX sz : Fin 2 → ℕ} {inbX : ∀ a, offX a + sz a ≤ S8192x1024.size a}
    {hsX : ∀ a, (Rect.unit (s := S8192x1024) offX sz inbX).stride a = 1}
    {offS : Fin 2 → ℕ} {inbS : ∀ a, offS a + sz a ≤ S2048x1024.size a}
    {hsS : ∀ a, (Rect.unit (s := S2048x1024) offS sz inbS).stride a = 1}
    {semE : DmaSem sig}
    (hoffX : offX = ![ldLo c (4 * r + k.val), 0]) (hoffS : offS = ![512 * k.val, 0])
    (hsz : sz = ![ldRows (4 * r + k.val), 1024]) (hsem : semE = ldS k)
    {hsrc : (xM.slice (Rect.unit (s := S8192x1024) offX sz inbX) hsX).view.WordExact}
    {hdst : (stgM.slice (Rect.unit (s := S2048x1024) offS sz inbS) hsS).view.WordExact}
    {hsem' : DmaTarget.Typed (nD := nD) (τ := τ) (p := Proc.tc) .hbm (.dma semE) (.here (stgM.slice (Rect.unit (s := S2048x1024) offS sz inbS) hsS))}
    {α : Type} {k' : PUnit → Prog (TpuEff nD τ sig (Elt F) Λ₀ .tc) α} {Q : α → sProp 𝕄} :
    iprop(records m K ∗ (xL c ↦{xRem n} xs m c) ∗ (∃ f, sL c ↦[SS c k.val]{fullShare} f)
        ∗ dutyTok ER (ldC c k) r false ∗ reached ER (ldC c k) r)
      ⊢ iprop((((xL c ↦{xRem (n + 1)} xs m c) ∗ cred (tallyAt (ldC c k) () (ldAmt (4 * r + k.val)))) -∗ wp frame (wpE (defs₀ (F := F)) 𝒱₀ c none) Set.univ (k' ⟨⟩) Q)
          -∗ wp frame (wpE (defs₀ (F := F)) 𝒱₀ c none) Set.univ (.op (.enqueueDma (xM.slice (Rect.unit (s := S8192x1024) offX sz inbX) hsX)
              (.here (stgM.slice (Rect.unit (s := S2048x1024) offS sz inbS) hsS)) (.dma semE) hsrc hdst hsem') k') Q) := by
  subst hoffX hoffS hsz hsem
  have hk := k.isLt
  have hsetS := set_slice_S c _ _ inbS hsS (512 * k.val) (ldRows (4 * r + k.val)) rfl rfl
  have hsub : ((stgM.slice (Rect.unit (s := S2048x1024) ![512 * k.val, 0] ![ldRows (4 * r + k.val), 1024] inbS) hsS).view.set : Finset (Idx (sL c))) ⊆ SS c k.val := by
    rw [hsetS]; unfold SS; intro i hi; rw [mem_rowsS] at hi ⊢; have := ldRows_le (4 * r + k.val); omega
  iintro ⟨#Hrec, Hx, ⟨%f, Hs⟩, Htok, Hr⟩ Hk
  ihave Hinv := (inv_of m K (ldC c k) rfl) $$ Hrec
  icases Hinv with ⟨%κ, #Hinv⟩
  ihave Hx2 := (x_take_any (F := F) c n ((xM.slice (Rect.unit (s := S8192x1024) ![ldLo c (4 * r + k.val), 0] ![ldRows (4 * r + k.val), 1024] inbX) hsX).view.set : Finset (Idx (xL c))) (xs m c)) $$ Hx
  icases Hx2 with ⟨Hsrc, Hx⟩
  ihave Hwu := (pointsTo_writeUpdate (c : Thread nD τ) (v := (stgM.slice (Rect.unit (s := S2048x1024) ![512 * k.val, 0] ![ldRows (4 * r + k.val), 1024] inbS) hsS).view)
      (w := (xM.slice (Rect.unit (s := S8192x1024) ![ldLo c (4 * r + k.val), 0] ![ldRows (4 * r + k.val), 1024] inbX) hsX).view.read (Elt F) (xs m c)) (fd := f) hsub) $$ Hs
  have hpay : iprop((sL c ↦[SS c k.val]{fullShare} ((stgM.slice (Rect.unit (s := S2048x1024) ![512 * k.val, 0] ![ldRows (4 * r + k.val), 1024] inbS) hsS).view.write (Elt F) f ((xM.slice (Rect.unit (s := S8192x1024) ![ldLo c (4 * r + k.val), 0] ![ldRows (4 * r + k.val), 1024] inbX) hsX).view.read (Elt F) (xs m c)) Finset.univ))
        ∗ (xL c ↦[((xM.slice (Rect.unit (s := S8192x1024) ![ldLo c (4 * r + k.val), 0] ![ldRows (4 * r + k.val), 1024] inbX) hsX).view.set : Finset (Idx (xL c)))]{(xRem n).left} xs m c))
      ⊢ (Rd (F := F) m).payload (ldC c k) r false := by
    rw [payload_ld]
    unfold ldPay
    iintro ⟨H, -⟩
    iexists _
    isplitl [H]; · iexact H
    ipureintro
    intro p q hp
    exact enq_val m c k (4 * r + k.val) inbX hsX inbS hsS f p q hp
  iapply (Rounds.wp_copy 𝒱₀ ER (Rd m) (c : Thread nD τ) none (src := (xM.slice (Rect.unit (s := S8192x1024) ![ldLo c (4 * r + k.val), 0] ![ldRows (4 * r + k.val), 1024] inbX) hsX)) (dst := (stgM.slice (Rect.unit (s := S2048x1024) ![512 * k.val, 0] ![ldRows (4 * r + k.val), 1024] inbS) hsS)) (sem := .dma (ldS k))
      (q := (xRem n).left) (fs := xs m c) (r := r) (d := false) (κ := κ)
      (by rw [duties_ld m c k r hr]; exact Finset.mem_singleton_self _) () (ldAmt (4 * r + k.val)) rfl (amount_ld m c k r hr false) hpay)
    $$ [Hsrc Hwu Htok Hr] [Hk Hx]
  · isplitr; · iexact Hinv
    isplitl [Hsrc]; · iexact Hsrc
    isplitl [Hwu]; · iexact Hwu
    isplitl [Htok]; · iexact Htok
    iexact Hr
  · iintro Hc
    iapply Hk
    isplitl [Hx]; · iexact Hx
    iexact Hc

theorem step_enq0 (K : Dev nD × Fin 70 → ℕ) (c : Dev nD) (k : Fin 4)
    {offX sz : Fin 2 → ℕ} {inbX : ∀ a, offX a + sz a ≤ S8192x1024.size a}
    {hsX : ∀ a, (Rect.unit (s := S8192x1024) offX sz inbX).stride a = 1}
    {offS : Fin 2 → ℕ} {inbS : ∀ a, offS a + sz a ≤ S2048x1024.size a}
    {hsS : ∀ a, (Rect.unit (s := S2048x1024) offS sz inbS).stride a = 1}
    {semE : DmaSem sig}
    (hoffX : offX = ![ldLo c k.val, 0]) (hoffS : offS = ![512 * k.val, 0] := by exact rfl)
    (hsz : sz = ![ldRows k.val, 1024] := by exact rfl) (hsem : semE = ldS k := by decide)
    {hsrc : (xM.slice (Rect.unit (s := S8192x1024) offX sz inbX) hsX).view.WordExact}
    {hdst : (stgM.slice (Rect.unit (s := S2048x1024) offS sz inbS) hsS).view.WordExact}
    {hsem' : DmaTarget.Typed (nD := nD) (τ := τ) (p := Proc.tc) .hbm (.dma semE) (.here (stgM.slice (Rect.unit (s := S2048x1024) offS sz inbS) hsS))}
    {α : Type} {k' : PUnit → Prog (TpuEff nD τ sig (Elt F) Λ₀ .tc) α} {Q : α → sProp 𝕄} :
    iprop(records m K ∗ (xL c ↦{xRem k.val} xs m c) ∗ (∃ f, sL c ↦[SS c k.val]{fullShare} f)
        ∗ atPos ER (ldC c k) 0 ∅ 0 ∗ (bigSep (Finset.Ico 0 6) fun r' => dutyTok ER (ldC c k) r' false))
      ⊢ iprop((((xL c ↦{xRem (k.val + 1)} xs m c) ∗ Slot c k 0) -∗ wp frame (wpE (defs₀ (F := F)) 𝒱₀ c none) Set.univ (k' ⟨⟩) Q)
          -∗ wp frame (wpE (defs₀ (F := F)) 𝒱₀ c none) Set.univ (.op (.enqueueDma (xM.slice (Rect.unit (s := S8192x1024) offX sz inbX) hsX)
              (.here (stgM.slice (Rect.unit (s := S2048x1024) offS sz inbS) hsS)) (.dma semE) hsrc hdst hsem') k') Q) := by
  have h0 : 4 * 0 + k.val = k.val := by omega
  rw [ico_take (fun r' => dutyTok ER (ldC c k) r' false) 0 6 (by decide)]
  unfold Slot
  iintro ⟨#Hrec, Hx, Hs, Hat, Htok, Htoks⟩ Hk
  ihave Hr := (reached0_of m K (ldC c k) rfl) $$ Hrec
  icases Hr with #Hr
  iapply (enq_load m K c k 0 (by decide) k.val (offX := offX) (sz := sz) (inbX := inbX) (hsX := hsX) (offS := offS) (inbS := inbS)
      (hsS := hsS) (semE := semE) (by rw [h0]; exact hoffX) hoffS (by rw [h0]; exact hsz) hsem (hsrc := hsrc) (hdst := hdst) (hsem' := hsem')
      (k' := k') (Q := Q)) $$ [Hx Hs Htok] [Hk Hat Htoks]
  · isplitr; · iexact Hrec
    isplitl [Hx]; · iexact Hx
    isplitl [Hs]; · iexact Hs
    isplitl [Htok]; · iexact Htok
    iexact Hr
  · iintro ⟨Hx, Hc⟩
    iapply Hk
    isplitl [Hx]; · iexact Hx
    isplitl [Hc]; · iexact Hc
    isplitl [Hat]; · iexact Hat
    isplitr; · iexact Hr
    iexact Htoks

theorem step_barwait (K : Dev nD × Fin 70 → ℕ) (c : Dev nD) {sem : Sem sig} {n : ℕ} (hsem : sem = barS := by exact rfl) (hn : n = 2 := by exact rfl)
    {α : Type} {k : PUnit → Prog (TpuEff nD τ sig (Elt F) Λ₀ .tc) α} {Q : α → sProp 𝕄} :
    iprop(records m K ∗ levAts L lv ∗ cred (tallyAt (barC c) () 2) ∗ atPos ER (barC c) 0 ∅ 0 ∗ Ow c (P2 c 0 + P1 c 0))
      ⊢ iprop(((Ow c (P2 c 0 + P1 c 0) ∗ atPos ER (barC c) 1 ∅ 0
              ∗ (bigSep (Finset.range 16) fun i => iprop(∃ f, oL (yn c) ↦[OS (yn c) (q1Lo c i) i]{fullShare} f))
              ∗ (bigSep (Finset.range 16) fun i => iprop(∃ f, oL (xn c) ↦[OS (xn c) (q2Lo c i) i]{fullShare} f)))
            -∗ wp frame (wpE (defs₀ (F := F)) 𝒱₀ c none) Set.univ (k ⟨⟩) Q)
          -∗ wp frame (wpE (defs₀ (F := F)) 𝒱₀ c none) Set.univ (.op (.semWait sem n) k) Q) := by
  subst hsem hn
  unfold Ow
  have hrest : bigSep ((Rd (F := F) m).duties (barC c) 0 \ ∅) (fun d => (Rd (F := F) m).payload (barC c) 0 d)
      ⊢ iprop((bigSep (Finset.range 16) fun i => iprop(∃ f, oL (yn c) ↦[OS (yn c) (q1Lo c i) i]{fullShare} f))
        ∗ (bigSep (Finset.range 16) fun i => iprop(∃ f, oL (xn c) ↦[OS (xn c) (q2Lo c i) i]{fullShare} f))) := by
    rw [rest_bar]
    unfold barPayF barPayT
    rw [fin_range 16 (fun i => iprop(∃ f, oL (yn c) ↦[OS (yn c) (q1Lo c i) i]{fullShare} f)),
      fin_range 16 (fun i => iprop(∃ f, oL (xn c) ↦[OS (xn c) (q2Lo c i) i]{fullShare} f))]
  iintro ⟨#Hrec, Hlev, Hcred, Hat, ⟨%W, HO⟩⟩ Hk
  ihave Hinv := (inv_of m K (barC c) rfl) $$ Hrec
  icases Hinv with ⟨%κ, #Hinv⟩
  iapply (Rounds.wp_wait_rest_token 𝒱₀ ER (Rd m) (c : Thread nD τ) none (κ := κ)
      (wpE_semWait_eq 𝒱₀ (c : Thread nD τ) none Set.univ) (Set.mem_univ _) () (O := P2 c 0 + P1 c 0) (W := W) (R := 0) (m := 0) (T := ∅)
      (by rw [expect_bar])) $$ [Hlev Hcred Hat HO] [Hk]
  · isplitr; · iexact Hinv
    isplitl [Hcred]; · iexact Hcred
    isplitl [HO]; · iexact HO
    isplitl [Hlev]; · iapply (mayWait_bar c) $$ Hlev
    iexact Hat
  · iintro ⟨HO, Hat, -, Hpay⟩
    iapply Hk
    isplitl [HO]; · iexists _; iexact HO
    isplitl [Hat]; · iexact Hat
    iapply hrest $$ Hpay

end Cert.KernelIdeal.Hand
end
-- ==== Proof.StepA.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import proofs.«900106_g7700000000000107_dist_ag_v7x_xy2x2_y_m8192_n1024_bf16_1_alg».proof.Proof.Sizes
import proofs.«900106_g7700000000000107_dist_ag_v7x_xy2x2_y_m8192_n1024_bf16_1_alg».proof.Proof.StepPre
import Idealize.ShloMosaic.Lib.Pipeline.Value

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

-- Waiting for a load's full amount hands back the staged rows with their contents, and moves the cell one round on.
theorem ld_wait (K : Dev nD × Fin 70 → ℕ) (c : Dev nD) (k : Fin 4) (r : ℕ) (hr : r < 6) (j' : ℕ)
    {sp sp' : Space} {s s' : Shape} {e e' : EltTy} {κ' : Kind}
    {sem : DmaSem sig} {src : Memref sig (c : Thread nD τ).2.kind sp' s' e'} {dst : Memref sig κ' sp s e}
    {hsrc : src.view.WordExact} {hdst : dst.view.WordExact}
    (hsem : sem = ldS k) (hamt : dst.view.dmaCredit = ldAmt (4 * r + k.val))
    {α : Type} {kk : PUnit → Prog (TpuEff nD τ sig (Elt F) Λ₀ .tc) α} {Q : α → sProp 𝕄} :
    iprop(records m K ∗ levAts L lv ∗ cred (tallyAt (ldC c k) () (ldAmt (4 * r + k.val))) ∗ atPos ER (ldC c k) r ∅ 0
        ∗ Ow c (P2 c 0 + P1 c j'))
      ⊢ iprop(((atPos ER (ldC c k) (r + 1) ∅ 0 ∗ reached ER (ldC c k) (r + 1) ∗ ldPay m c k r ∗ Ow c (P2 c 0 + P1 c j'))
            -∗ wp frame (wpE (defs₀ (F := F)) 𝒱₀ c none) Set.univ (kk ⟨⟩) Q)
          -∗ wp frame (wpE (defs₀ (F := F)) 𝒱₀ c none) Set.univ (.op (.waitDma2 sem src dst hsrc hdst) kk) Q) := by
  subst hsem
  rw [← hamt]
  unfold Ow
  iintro ⟨#Hrec, #Hlev, Hc, Hat, ⟨%W, HO⟩⟩ Hk
  ihave HI := (inv_of m K (ldC c k) rfl) $$ Hrec
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) () (O := P2 c 0 + P1 c j') (W := W) (R := r) (m := 0) (T := ∅)
      (by rw [Nat.zero_add, expect_ld m c k r hr]; exact hamt)) $$ [Hc HO Hat]
  · isplitr; · iexact HI
    isplitl [Hc]; · iexact Hc
    isplitl [HO]; · iexact HO
    isplitr; · iapply (mayWait_ld c k j'); iexact Hlev
    iexact Hat
  iintro ⟨HO, Hat, #Hr, Hpay⟩
  ihave Hp := (Entails.of_eq (rest_ld m c k r hr)) $$ Hpay
  iapply Hk
  isplitl [Hat]; · iexact Hat
  isplitr; · iexact Hr
  isplitl [Hp]; · iexact Hp
  iexists _; iexact HO

omit [FloatOps F] in
theorem ico_put (Ψ : ℕ → sProp 𝕄) (a j : ℕ) (h : a ≤ j) :
    bigSep (Finset.Ico a (j + 1)) Ψ = iprop(Ψ j ∗ bigSep (Finset.Ico a j) Ψ) := by
  rw [Nat.Ico_succ_right_eq_insert_Ico h, bigSep_insert (by simp)]; rfl

-- Rounding a block and re-reading it in its own shape is rounding entry by entry.
theorem pay_trunc {s : Shape} (h : s.ShapeCasts s) (v : Vec F s .f32) (y : s.Idx) :
    shapeCast s (truncf .bf16 v bitsLt_bf16_f32) h y = FloatOps.truncf .bf16 bitsLt_bf16_f32 (v y) :=
  congrFun (shapeCast_self _ h) y
-- Rounding the staged rows into their rows of the own block leaves there the rounded argument rows.
theorem ld_round (c : Dev nD) (k : Fin 4) (j : ℕ) (hj : j < 24)
    {offS offM offM' sz : Fin 2 → ℕ}
    {inbS : ∀ a, offS a + sz a ≤ S2048x1024.size a} {inbM : ∀ a, offM a + sz a ≤ S8192x1024.size a}
    {inbM' : ∀ a, offM' a + sz a ≤ S8192x1024.size a}
    {hl : stgM.view.LoadsAt (Rect.unit (s := S2048x1024) offS sz inbS).toLoadRect}
    {hl' : mineM.view.LoadsAt (Rect.unit (s := S8192x1024) offM sz inbM).toLoadRect}
    {pay : ((⟨2, sz⟩ : Shape).Idx → Elt F .f32) → ((⟨2, sz⟩ : Shape).Idx → Elt F .bf16)}
    {hx : (mineM.access (Rect.unit (s := S8192x1024) offM' sz inbM')).Stores Finset.univ}
    {hm : (Finset.univ : Finset (Rect.unit (s := S8192x1024) offM' sz inbM').shape.Idx) = Finset.univ
      ∨ ∀ a, (Rect.unit (s := S8192x1024) offM' sz inbM').stride a = 1}
    (hoffS : offS = ![512 * k.val, 0]) (hsz : sz = ![ldRows j, 1024])
    (hoffM : offM = ![ldLo c j, 0]) (hoffM' : offM' = ![ldLo c j, 0])
    (hpay : ∀ v y, pay v y = FloatOps.truncf .bf16 bitsLt_bf16_f32 (v y))
    (f : Buf (Elt F) (sL c)) (fm : Buf (Elt F) (mL c))
    (hf : ∀ (p : ℕ) (q : Fin 1024), p < ldRows j → f (sIx c (512 * k.val + p) q) = xs m c (xIx c (ldLo c j + p) q))
    {α : Type} {kk : PUnit → Prog (TpuEff nD τ sig (Elt F) Λ₀ .tc) α} {Q : α → sProp 𝕄} :
    iprop((sL c ↦[SS c k.val]{fullShare} f) ∗ (mL c ↦[MS c j]{fullShare} fm))
      ⊢ iprop((((sL c ↦[SS c k.val]{fullShare} f) ∗ (mL c ↦[MS c j]{fullShare} mineV m c)) -∗ wp frame (wpE (defs₀ (F := F)) 𝒱₀ c none) Set.univ (kk ⟨⟩) Q)
          -∗ wp frame (wpE (defs₀ (F := F)) 𝒱₀ c none) Set.univ (.op (.load stgM (Rect.unit (s := S2048x1024) offS sz inbS).toLoadRect hl) (fun v =>
              .op (.load mineM (Rect.unit (s := S8192x1024) offM sz inbM).toLoadRect hl') (fun _ =>
              .op (.store mineM (Rect.unit (s := S8192x1024) offM' sz inbM') (pay v) Finset.univ hx hm) kk))) Q) := by
  subst hoffS hoffM hoffM' hsz
  have hlo := ldLo_add_le c j hj
  have hle := ldRows_le j
  have hk4 := k.isLt
  have hS1 : stgM.view.setOn (Rect.unit (s := S2048x1024) ![512 * k.val, 0] ![ldRows j, 1024] inbS).toLoadRect.set ⊆ SS c k.val := by
    rw [setOn_load_S c _ _ inbS (512 * k.val) (ldRows j) rfl rfl]
    unfold SS
    intro i hi
    rw [mem_rowsS] at hi ⊢
    omega
  have hS2 : mineM.view.setOn (Rect.unit (s := S8192x1024) ![ldLo c j, 0] ![ldRows j, 1024] inbM).toLoadRect.set ⊆ MS c j := by
    rw [setOn_load_M c _ _ inbM (ldLo c j) (ldRows j) rfl rfl]; exact subset_rfl
  have hE3 : (mineM.access (Rect.unit (s := S8192x1024) ![ldLo c j, 0] ![ldRows j, 1024] inbM')).setOn Finset.univ = MS c j :=
    setOn_access_M c _ _ inbM' (ldLo c j) (ldRows j) rfl rfl
  have hval : ∀ i ∈ MS c j,
      (mineM.access (Rect.unit (s := S8192x1024) ![ldLo c j, 0] ![ldRows j, 1024] inbM')).write (Elt F) fm
        (pay (stgM.view.readAt (Elt F) (Rect.unit (s := S2048x1024) ![512 * k.val, 0] ![ldRows j, 1024] inbS).toLoadRect f)) Finset.univ i
        = mineV m c i := by
    intro i hi
    rw [← hE3] at hi
    obtain ⟨y, rfl⟩ : ∃ y : (⟨2, ![ldRows j, 1024]⟩ : Shape).Idx,
        (mineM.access (Rect.unit (s := S8192x1024) ![ldLo c j, 0] ![ldRows j, 1024] inbM')).emb y = i :=
      (by obtain ⟨y, -, e⟩ := Finset.mem_map.mp hi; exact ⟨y, e⟩)
    rw [View.write_emb_of_mem _ _ (Finset.mem_univ y), hpay]
    have hy0 : (y 0).val < ldRows j := (y 0).isLt
    have hy1 : (y 1).val < 1024 := (y 1).isLt
    have e1 := hf (y 0).val (y 1) hy0
    have hA : (Rect.unit (s := S2048x1024) ![512 * k.val, 0] ![ldRows j, 1024] inbS).toLoadRect.idx y
        = sIx c (512 * k.val + (y 0).val) (y 1) := by
      funext a
      match a with
      | ⟨0, _⟩ => exact Fin.ext (by show 512 * k.val + 1 * (y 0).val = (512 * k.val + (y 0).val) % 2048; omega)
      | ⟨1, _⟩ => exact Fin.ext (by show 0 + 1 * (y 1).val = (y 1).val; omega)
    have hB : (Rect.unit (s := S8192x1024) ![ldLo c j, 0] ![ldRows j, 1024] inbM').emb y
        = xIx c (ldLo c j + (y 0).val) (y 1) := by
      funext a
      match a with
      | ⟨0, _⟩ => exact Fin.ext (by show ldLo c j + 1 * (y 0).val = (ldLo c j + (y 0).val) % 8192; omega)
      | ⟨1, _⟩ => exact Fin.ext (by show 0 + 1 * (y 1).val = (y 1).val; omega)
    show FloatOps.truncf .bf16 bitsLt_bf16_f32 (f ((Rect.unit (s := S2048x1024) ![512 * k.val, 0] ![ldRows j, 1024] inbS).toLoadRect.idx y))
      = FloatOps.truncf .bf16 bitsLt_bf16_f32 (xs m c ((Rect.unit (s := S8192x1024) ![ldLo c j, 0] ![ldRows j, 1024] inbM').emb y))
    rw [hA, hB, e1]
  iintro ⟨Hs, Hm⟩ Hk
  iapply (wp_load 𝒱₀ (c : Thread nD τ) none Set.univ (m := stgM) (S := SS c k.val) (q := fullShare) (f := f) hS1) $$ [Hs]
  · iexact Hs
  iintro Hs
  iapply (wp_load 𝒱₀ (c : Thread nD τ) none Set.univ (m := mineM) (S := MS c j) (q := fullShare) (f := fm) hS2) $$ [Hm]
  · iexact Hm
  iintro Hm
  iapply (wp_store 𝒱₀ (c : Thread nD τ) none Set.univ (m := mineM) (r := Rect.unit (s := S8192x1024) ![ldLo c j, 0] ![ldRows j, 1024] inbM') (S := MS c j) (f := fm) hE3.le) $$ [Hm]
  · iexact Hm
  iintro Hm
  iapply Hk
  isplitl [Hs]; · iexact Hs
  ihave Hm' := (Entails.of_eq (pointsTo_congr hval)) $$ Hm
  iexact Hm'

-- What a first transfer lands on the neighbour along the second axis is that neighbour's gathered array on those rows.
theorem ch_landed (c : Dev nD) (j : ℕ) (hj : j < 16)
    (offP offQ szP : Fin 2 → ℕ)
    (inbP : ∀ a, offP a + szP a ≤ S8192x1024.size a) (inbQ : ∀ a, offQ a + szP a ≤ S16384x1024.size a)
    (hsP : ∀ a, (Rect.unit (s := S8192x1024) offP szP inbP).stride a = 1)
    (hsQ : ∀ a, (Rect.unit (s := S16384x1024) offQ szP inbQ).stride a = 1)
    (hoffP : offP = ![ldLo c j, 0]) (hoffQ : offQ = ![q1Lo c j, 0]) (hszP : szP = ![chRows j, 1024])
    (fd : Buf (Elt F) (oL (yn c))) :
    ((oL (yn c) ↦[((oM.slice (Rect.unit (s := S16384x1024) offQ szP inbQ) hsQ).view.set : Finset (Idx (oL (yn c))))]{fullShare}
        ((oM.slice (Rect.unit (s := S16384x1024) offQ szP inbQ) hsQ).view.write (Elt F) fd
          ((mineM.slice (Rect.unit (s := S8192x1024) offP szP inbP) hsP).view.read (Elt F) (mineV m c)) Finset.univ)) : sProp 𝕄)
      ⊢ r1Pay m (yn c) ⟨j, hj⟩ := by
  subst hoffP hoffQ hszP
  unfold r1Pay OS
  rw [show q2Lo (yn c) j = q1Lo c j from by have := q1Lo_yn (yn c) j; rw [yn_yn] at this; exact this.symm,
    ← set_slice_O (yn c) _ _ inbQ hsQ (q1Lo c j) (chRows j) rfl rfl]
  refine Entails.of_eq (pointsTo_congr ?_)
  intro i hi
  obtain ⟨x, -, rfl⟩ := Finset.mem_map.mp hi
  rw [View.write_emb_of_mem _ _ (Finset.mem_univ x), View.read_apply]
  refine (cast_cast_id _ _ _).trans ?_
  have hp : (x 0).val < chRows j := (x 0).isLt
  have htop : chOff j + chRows j ≤ 4096 := by unfold chOff chRows; interval_cases j <;> decide
  have hx := cx_le c
  have hy := cy_le c
  have h0 : (((oM.slice (Rect.unit (s := S16384x1024) ![q1Lo c j, 0] ![chRows j, 1024] inbQ) hsQ).view.emb x 0 : Fin _) : ℕ) = q1Lo c j + (x 0).val := by
    show q1Lo c j + 1 * (x 0).val = q1Lo c j + (x 0).val
    omega
  have h1 : (((oM.slice (Rect.unit (s := S16384x1024) ![q1Lo c j, 0] ![chRows j, 1024] inbQ) hsQ).view.emb x 1 : Fin _) : ℕ) = (x 1).val := by
    show 0 + 1 * (x 1).val = (x 1).val
    omega
  have g0 : (((mineM.slice (Rect.unit (s := S8192x1024) ![ldLo c j, 0] ![chRows j, 1024] inbP) hsP).view.emb x 0 : Fin _) : ℕ) = ldLo c j + (x 0).val := by
    show ldLo c j + 1 * (x 0).val = ldLo c j + (x 0).val
    omega
  have g1 : (((mineM.slice (Rect.unit (s := S8192x1024) ![ldLo c j, 0] ![chRows j, 1024] inbP) hsP).view.emb x 1 : Fin _) : ℕ) = (x 1).val := by
    show 0 + 1 * (x 1).val = (x 1).val
    omega
  have hq : q1Lo c j = 8192 * cy c + 4096 * cx c + chOff j := rfl
  have hl : ldLo c j = 4096 * cx c + chOff j := by unfold ldLo; rw [if_pos hj]
  have key : ∀ (d : Dev nD), d = c → ∀ (a : Idx (mL d)) (b : Idx (mL c)), (∀ t, (a t).val = (b t).val) → mineV m d a = mineV m c b := by
    rintro d rfl a b hab
    exact congrArg _ (funext fun t => Fin.ext (hab t))
  obtain ⟨A, hA⟩ : ∃ A, A = (oM.slice (Rect.unit (s := S16384x1024) ![q1Lo c j, 0] ![chRows j, 1024] inbQ) hsQ).view.emb x := ⟨_, rfl⟩
  obtain ⟨B, hB⟩ : ∃ B, B = (mineM.slice (Rect.unit (s := S8192x1024) ![ldLo c j, 0] ![chRows j, 1024] inbP) hsP).view.emb x := ⟨_, rfl⟩
  rw [← hA] at h0 h1
  rw [← hB] at g0 g1
  rw [← hA, ← hB]
  unfold outV
  have hT : chOff j + (x 0).val < 4096 := by omega
  have hcx : cx c = c.val / 2 := rfl
  have hcy : cy c = c.val % 2 := rfl
  have e1 : (q1Lo c j + (x 0).val) / 8192 = cy c := Nat.div_eq_of_lt_le (by omega) (by omega)
  have e2 : (q1Lo c j + (x 0).val) % 8192 = 4096 * cx c + chOff j + (x 0).val := by
    have := Nat.div_add_mod (q1Lo c j + (x 0).val) 8192
    rw [e1] at this
    omega
  have e3 : (4096 * cx c + chOff j + (x 0).val) / 4096 = cx c := Nat.div_eq_of_lt_le (by omega) (by omega)
  have hdev : (if (A 0).val / 8192 = cy (yn c) then yn c else srcDev (A 0).val) = c := by
    rw [h0, e1, if_neg (by rw [cy_yn]; omega)]
    refine Fin.ext ?_
    show (2 * ((q1Lo c j + (x 0).val) % 8192 / 4096) + (q1Lo c j + (x 0).val) / 8192) % 4 = c.val
    rw [e2, e3, e1]
    omega
  refine (key _ hdev _ _ ?_).symm
  intro t
  fin_cases t
  · show ((A 0).val % 8192) = (B 0).val
    rw [h0, g0, e2]
    omega
  · show (A 1).val = (B 1).val
    rw [g1]
    exact h1

-- Starting chunk j's first transfer pays its two duties and takes its amount off what is still owed.
theorem ch_send (K : Dev nD × Fin 70 → ℕ) (c : Dev nD) (j : ℕ) (hj : j < 16)
    {offP offQ szP : Fin 2 → ℕ}
    {inbP : ∀ a, offP a + szP a ≤ S8192x1024.size a} {inbQ : ∀ a, offQ a + szP a ≤ S16384x1024.size a}
    {hsP : ∀ a, (Rect.unit (s := S8192x1024) offP szP inbP).stride a = 1}
    {hsQ : ∀ a, (Rect.unit (s := S16384x1024) offQ szP inbQ).stride a = 1}
    {d : Dev nD} {sS sR : DmaSem sig}
    {hsc : (oM.slice (Rect.unit (s := S16384x1024) offQ szP inbQ) hsQ).view.ref.isScScratch = false}
    {hsrc : (mineM.slice (Rect.unit (s := S8192x1024) offP szP inbP) hsP).view.WordExact}
    {hdst : (oM.slice (Rect.unit (s := S16384x1024) offQ szP inbQ) hsQ).view.WordExact}
    {hty : DmaTarget.Typed (nD := nD) (τ := τ) (p := .tc) .vmem (.dma sR)
      (.remote (Dev.tc d) (oM.slice (Rect.unit (s := S16384x1024) offQ szP inbQ) hsQ) (.dma sS) hsc)}
    (hoffP : offP = ![ldLo c j, 0]) (hoffQ : offQ = ![q1Lo c j, 0]) (hszP : szP = ![chRows j, 1024])
    (hd : d = yn c) (hsS : sS = s1S ⟨j, hj⟩) (hsR : sR = r1S ⟨j, hj⟩)
    {α : Type} {kk : PUnit → Prog (TpuEff nD τ sig (Elt F) Λ₀ .tc) α} {Q : α → sProp 𝕄} :
    iprop(records m K ∗ (mL c ↦[MS c j]{fullShare} mineV m c)
        ∗ dutyTok ER (s1C c ⟨j, hj⟩) 0 false ∗ dutyTok ER (r1C (yn c) ⟨j, hj⟩) 0 false
        ∗ (∃ f, oL (yn c) ↦[OS (yn c) (q1Lo c j) j]{fullShare} f) ∗ Ow c (P2 c 0 + P1 c j))
      ⊢ iprop((((mL c ↦[MS c j]{shR} mineV m c) ∗ cred (tallyAt (s1C c ⟨j, hj⟩) () (chAmt j)) ∗ Ow c (P2 c 0 + P1 c (j + 1)))
            -∗ wp frame (wpE (defs₀ (F := F)) 𝒱₀ c none) Set.univ (kk ⟨⟩) Q)
          -∗ wp frame (wpE (defs₀ (F := F)) 𝒱₀ c none) Set.univ (.op (.enqueueDma (mineM.slice (Rect.unit (s := S8192x1024) offP szP inbP) hsP)
              (.remote (Dev.tc d) (oM.slice (Rect.unit (s := S16384x1024) offQ szP inbQ) hsQ) (.dma sS) hsc) (.dma sR) hsrc hdst hty) kk) Q) := by
  subst hd hsS hsR
  have hMS : MS c j = ((mineM.slice (Rect.unit (s := S8192x1024) offP szP inbP) hsP).view.set : Finset (Idx (mL c))) := by
    unfold MS ldRows
    rw [if_pos hj, set_slice_M c offP szP inbP hsP (ldLo c j) (chRows j) hoffP hszP]
  have hOS : OS (yn c) (q1Lo c j) j = ((oM.slice (Rect.unit (s := S16384x1024) offQ szP inbQ) hsQ).view.set : Finset (Idx (oL (yn c)))) := by
    unfold OS
    rw [set_slice_O (yn c) offQ szP inbQ hsQ (q1Lo c j) (chRows j) hoffQ hszP]
  have hN : (oM.slice (Rect.unit (s := S16384x1024) offQ szP inbQ) hsQ).view.amount (.dma (r1S ⟨j, hj⟩)) = chAmt j := by
    subst hszP; rfl
  unfold Ow
  iintro ⟨#Hrec, Hm, Ht1, Ht2, ⟨%fd, Ho⟩, ⟨%W, HO⟩⟩ Hk
  ihave HI1 := (inv_of m K (s1C c ⟨j, hj⟩) rfl) $$ Hrec
  icases HI1 with ⟨%κ₁, #HI1⟩
  ihave HI2 := (inv_of m K (r1C (yn c) ⟨j, hj⟩) rfl) $$ Hrec
  icases HI2 with ⟨%κ₂, #HI2⟩
  ihave Hr1 := (reached0_of m K (s1C c ⟨j, hj⟩) rfl) $$ Hrec
  icases Hr1 with #Hr1
  ihave Hr2 := (reached0_of m K (r1C (yn c) ⟨j, hj⟩) rfl) $$ Hrec
  icases Hr2 with #Hr2
  ihave Hh := (mine_halves c (MS c j) (mineV m c)).1 $$ Hm
  icases Hh with ⟨HmL, HmR⟩
  ihave HmL' := (Entails.of_eq (congrArg (fun S => (mL c ↦[S]{shL} mineV m c : sProp 𝕄)) hMS)) $$ HmL
  ihave Ho' := (Entails.of_eq (congrArg (fun S => (oL (yn c) ↦[S]{fullShare} fd : sProp 𝕄)) hOS)) $$ Ho
  iapply (Rounds.wp_send_pointsTo 𝒱₀ ER (Rd m) (c : Thread nD τ) none (κ₁ := κ₁) (κ₂ := κ₂)
      (r₁ := 0) (r₂ := 0) (d₁ := false) (d₂ := false) (O₀ := P2 c 0 + P1 c j) (q := shL) (fs := mineV m c) (fd := fd)
      (by rw [duties_s1]; exact Finset.mem_singleton_self _) (by rw [duties_r1]; exact Finset.mem_singleton_self _)
      () () (chAmt j) hN (amount_s1 m c ⟨j, hj⟩ false) (amount_r1 m (yn c) ⟨j, hj⟩ false)
      (P2 c 0 + P1 c (j + 1)) (by rw [P1_peel c j hj, add_assoc]) (W := W)
      (by rw [payload_s1]; unfold s1Pay; rw [← hMS])
      (by rw [payload_r1]; exact ch_landed m c j hj offP offQ szP inbP inbQ hsP hsQ hoffP hoffQ hszP fd))
    $$ [HmL' Ho' HO Ht1 Ht2]
  · isplitr; · iexact HI1
    isplitr; · iexact HI2
    isplitl [HmL']; · iexact HmL'
    isplitl [Ho']; · iexact Ho'
    isplitl [HO]; · iexact HO
    isplitl [Ht1]; · iexact Ht1
    isplitr; · iexact Hr1
    isplitl [Ht2]; · iexact Ht2
    iexact Hr2
  iintro ⟨Hc, HO⟩
  iapply Hk
  isplitl [HmR]; · iexact HmR
  isplitl [Hc]; · iexact Hc
  iexists W
  iexact HO

section
variable (K : Dev nD × Fin 70 → ℕ) (c : Dev nD)
  {sp sp' : Space} {s s' : Shape} {e e' : EltTy} {κ' : Kind}
  {semL : DmaSem sig} {srcL : Memref sig (c : Thread nD τ).2.kind sp' s' e'} {dstL : Memref sig κ' sp s e}
  {hsrcL : srcL.view.WordExact} {hdstL : dstL.view.WordExact}
  {offS offM offM' sz : Fin 2 → ℕ}
  {inbS : ∀ a, offS a + sz a ≤ S2048x1024.size a} {inbM : ∀ a, offM a + sz a ≤ S8192x1024.size a}
  {inbM' : ∀ a, offM' a + sz a ≤ S8192x1024.size a}
  {hl : stgM.view.LoadsAt (Rect.unit (s := S2048x1024) offS sz inbS).toLoadRect}
  {hl' : mineM.view.LoadsAt (Rect.unit (s := S8192x1024) offM sz inbM).toLoadRect}
  {pay : ((⟨2, sz⟩ : Shape).Idx → Elt F .f32) → ((⟨2, sz⟩ : Shape).Idx → Elt F .bf16)}
  {hx : (mineM.access (Rect.unit (s := S8192x1024) offM' sz inbM')).Stores Finset.univ}
  {hm : (Finset.univ : Finset (Rect.unit (s := S8192x1024) offM' sz inbM').shape.Idx) = Finset.univ
    ∨ ∀ a, (Rect.unit (s := S8192x1024) offM' sz inbM').stride a = 1}
theorem step_A3 (j : ℕ) (k : Fin 4) (fm : Buf (Elt F) (mL c))
    (hoffM : offM = ![ldLo c j, 0]) (hoffM' : offM' = ![ldLo c j, 0])
    (h20 : 20 ≤ j := by decide) (h24 : j < 24 := by decide) (hjk : j = 4 * 5 + k.val := by exact rfl)
    (hsemL : semL = ldS k := by decide) (hamt : dstL.view.dmaCredit = ldAmt j := by exact rfl)
    (hoffS : offS = ![512 * k.val, 0] := by exact rfl) (hsz : sz = ![ldRows j, 1024] := by exact rfl)
    (hpay : ∀ v y, pay v y = FloatOps.truncf .bf16 bitsLt_bf16_f32 (v y) := by exact pay_trunc _)
    {α : Type} {kk : PUnit → Prog (TpuEff nD τ sig (Elt F) Λ₀ .tc) α} {Q : α → sProp 𝕄} :
    iprop(records m K ∗ levAts L lv ∗ Slot c k 5 ∗ MnB m c fm j ∗ Ow c (P2 c 0 + P1 c 16))
      ⊢ iprop(((SlotDone c k ∗ MnB m c fm (j + 1) ∗ Ow c (P2 c 0 + P1 c 16)) -∗ wp frame (wpE (defs₀ (F := F)) 𝒱₀ c none) Set.univ (kk ⟨⟩) Q)
          -∗ wp frame (wpE (defs₀ (F := F)) 𝒱₀ c none) Set.univ (.op (.waitDma2 semL srcL dstL hsrcL hdstL) (fun _ =>
              .op (.load stgM (Rect.unit (s := S2048x1024) offS sz inbS).toLoadRect hl) (fun v =>
              .op (.load mineM (Rect.unit (s := S8192x1024) offM sz inbM).toLoadRect hl') (fun _ =>
              .op (.store mineM (Rect.unit (s := S8192x1024) offM' sz inbM') (pay v) Finset.univ hx hm) kk)))) Q) := by
  have hj16 : 16 ≤ j := by omega
  unfold Slot SlotDone MnB
  rw [ico_take _ j 24 h24, ico_put _ 16 j hj16]
  iintro ⟨#Hrec, #Hlev, ⟨Hc, Hat, -, -⟩, ⟨⟨Hmj, Hpend⟩, Hd16, HdB⟩, HO⟩ Hk
  iapply (ld_wait m K c k 5 (by decide) 16 hsemL (hamt.trans (by rw [hjk]))) $$ [Hc Hat HO]
  · isplitr; · iexact Hrec
    isplitr; · iexact Hlev
    isplitl [Hc]; · iexact Hc
    isplitl [Hat]; · iexact Hat
    iexact HO
  iintro ⟨Hat, -, Hpay, HO⟩
  unfold ldPay
  icases Hpay with ⟨%f, Hs, %hf⟩
  iapply (ld_round m c k j h24 hoffS hsz hoffM hoffM' hpay f fm (by rw [hjk]; exact hf)) $$ [Hs Hmj]
  · isplitl [Hs]; · iexact Hs
    iexact Hmj
  iintro ⟨Hs, Hmj⟩
  iapply Hk
  isplitl [Hat Hs]
  · isplitl [Hat]; · iexact Hat
    iexists f; iexact Hs
  isplitl [Hmj Hpend Hd16 HdB]
  · isplitl [Hpend]; · iexact Hpend
    isplitl [Hd16]; · iexact Hd16
    isplitl [Hmj]; · iexact Hmj
    iexact HdB
  iexact HO

variable
  {offX offS' szN : Fin 2 → ℕ}
  {inbX : ∀ a, offX a + szN a ≤ S8192x1024.size a} {inbS' : ∀ a, offS' a + szN a ≤ S2048x1024.size a}
  {hsX : ∀ a, (Rect.unit (s := S8192x1024) offX szN inbX).stride a = 1}
  {hsS' : ∀ a, (Rect.unit (s := S2048x1024) offS' szN inbS').stride a = 1}
  {semE : DmaSem sig}
  {hsrcE : (xM.slice (Rect.unit (s := S8192x1024) offX szN inbX) hsX).view.WordExact}
  {hdstE : (stgM.slice (Rect.unit (s := S2048x1024) offS' szN inbS') hsS').view.WordExact}
  {htyE : DmaTarget.Typed (nD := nD) (τ := τ) (p := Proc.tc) .hbm (.dma semE) (.here (stgM.slice (Rect.unit (s := S2048x1024) offS' szN inbS') hsS'))}
theorem step_A2 (j : ℕ) (k : Fin 4) (r : ℕ) (fm : Buf (Elt F) (mL c))
    (hoffM : offM = ![ldLo c j, 0]) (hoffM' : offM' = ![ldLo c j, 0])
    (hoffX : offX = ![ldLo c (j + 4), 0])
    (h16 : 16 ≤ j := by decide) (h20 : j < 20 := by decide) (hjk : j = 4 * r + k.val := by exact rfl)
    (hsemL : semL = ldS k := by decide) (hamt : dstL.view.dmaCredit = ldAmt j := by exact rfl)
    (hoffS : offS = ![512 * k.val, 0] := by exact rfl) (hsz : sz = ![ldRows j, 1024] := by exact rfl)
    (hpay : ∀ v y, pay v y = FloatOps.truncf .bf16 bitsLt_bf16_f32 (v y) := by exact pay_trunc _)
    (hoffS' : offS' = ![512 * k.val, 0] := by exact rfl) (hszN : szN = ![ldRows (j + 4), 1024] := by exact rfl) (hsemE : semE = ldS k := by decide)
    {α : Type} {kk : PUnit → Prog (TpuEff nD τ sig (Elt F) Λ₀ .tc) α} {Q : α → sProp 𝕄} :
    iprop(records m K ∗ levAts L lv ∗ Slot c k r ∗ (xL c ↦{xRem (j + 4)} xs m c) ∗ MnB m c fm j ∗ Ow c (P2 c 0 + P1 c 16))
      ⊢ iprop(((Slot c k (r + 1) ∗ (xL c ↦{xRem (j + 5)} xs m c) ∗ MnB m c fm (j + 1) ∗ Ow c (P2 c 0 + P1 c 16)) -∗ wp frame (wpE (defs₀ (F := F)) 𝒱₀ c none) Set.univ (kk ⟨⟩) Q)
          -∗ wp frame (wpE (defs₀ (F := F)) 𝒱₀ c none) Set.univ (.op (.waitDma2 semL srcL dstL hsrcL hdstL) (fun _ =>
              .op (.load stgM (Rect.unit (s := S2048x1024) offS sz inbS).toLoadRect hl) (fun v =>
              .op (.load mineM (Rect.unit (s := S8192x1024) offM sz inbM).toLoadRect hl') (fun _ =>
              .op (.store mineM (Rect.unit (s := S8192x1024) offM' sz inbM') (pay v) Finset.univ hx hm) (fun _ =>
              .op (.enqueueDma (xM.slice (Rect.unit (s := S8192x1024) offX szN inbX) hsX)
              (.here (stgM.slice (Rect.unit (s := S2048x1024) offS' szN inbS') hsS')) (.dma semE) hsrcE hdstE htyE) kk))))) Q) := by
  have hr : r < 6 := by omega
  have hr1 : r + 1 < 6 := by omega
  have he : j + 4 = 4 * (r + 1) + k.val := by omega
  have hj24 : j < 24 := by omega
  unfold Slot MnB
  rw [ico_take _ j 24 hj24, ico_put _ 16 j h16, ico_take _ (r + 1) 6 hr1]
  iintro ⟨#Hrec, #Hlev, ⟨Hc, Hat, -, Htok, Htoks⟩, Hx, ⟨⟨Hmj, Hpend⟩, Hd16, HdB⟩, HO⟩ Hk
  iapply (ld_wait m K c k r hr 16 hsemL (hamt.trans (by rw [hjk]))) $$ [Hc Hat HO]
  · isplitr; · iexact Hrec
    isplitr; · iexact Hlev
    isplitl [Hc]; · iexact Hc
    isplitl [Hat]; · iexact Hat
    iexact HO
  iintro ⟨Hat, #Hr1, Hpay, HO⟩
  unfold ldPay
  icases Hpay with ⟨%f, Hs, %hf⟩
  iapply (ld_round m c k j hj24 hoffS hsz hoffM hoffM' hpay f fm (by rw [hjk]; exact hf)) $$ [Hs Hmj]
  · isplitl [Hs]; · iexact Hs
    iexact Hmj
  iintro ⟨Hs, Hmj⟩
  iapply (enq_load m K c k (r + 1) hr1 (j + 4) (hoffX.trans (by rw [he])) hoffS' (hszN.trans (by rw [he])) hsemE) $$ [Hx Hs Htok]
  · isplitr; · iexact Hrec
    isplitl [Hx]; · iexact Hx
    isplitl [Hs]; · iexists f; iexact Hs
    isplitl [Htok]; · iexact Htok
    iexact Hr1
  iintro ⟨Hx, Hc⟩
  iapply Hk
  isplitl [Hc Hat Htoks]
  · isplitl [Hc]; · iexact Hc
    isplitl [Hat]; · iexact Hat
    isplitr; · iexact Hr1
    iexact Htoks
  isplitl [Hx]; · iexact Hx
  isplitl [Hmj Hpend Hd16 HdB]
  · isplitl [Hpend]; · iexact Hpend
    isplitl [Hd16]; · iexact Hd16
    isplitl [Hmj]; · iexact Hmj
    iexact HdB
  iexact HO

theorem step_A1 (j : ℕ) (k : Fin 4) (r : ℕ) (fm : Buf (Elt F) (mL c))
    {offP offQ szP : Fin 2 → ℕ}
    {inbP : ∀ a, offP a + szP a ≤ S8192x1024.size a} {inbQ : ∀ a, offQ a + szP a ≤ S16384x1024.size a}
    {hsP : ∀ a, (Rect.unit (s := S8192x1024) offP szP inbP).stride a = 1}
    {hsQ : ∀ a, (Rect.unit (s := S16384x1024) offQ szP inbQ).stride a = 1}
    {d : Dev nD} {sS sR : DmaSem sig}
    {hsc : (oM.slice (Rect.unit (s := S16384x1024) offQ szP inbQ) hsQ).view.ref.isScScratch = false}
    {hsrcP : (mineM.slice (Rect.unit (s := S8192x1024) offP szP inbP) hsP).view.WordExact}
    {hdstQ : (oM.slice (Rect.unit (s := S16384x1024) offQ szP inbQ) hsQ).view.WordExact}
    {htyP : DmaTarget.Typed (nD := nD) (τ := τ) (p := .tc) .vmem (.dma sR)
      (.remote (Dev.tc d) (oM.slice (Rect.unit (s := S16384x1024) offQ szP inbQ) hsQ) (.dma sS) hsc)}
    (hoffM : offM = ![ldLo c j, 0]) (hoffM' : offM' = ![ldLo c j, 0])
    (hoffX : offX = ![ldLo c (j + 4), 0]) (hoffP : offP = ![ldLo c j, 0]) (hoffQ : offQ = ![q1Lo c j, 0]) (hd : d = yn c)
    (hj : j < 16 := by decide) (hjk : j = 4 * r + k.val := by exact rfl)
    (hsemL : semL = ldS k := by decide) (hamt : dstL.view.dmaCredit = ldAmt j := by exact rfl)
    (hoffS : offS = ![512 * k.val, 0] := by exact rfl) (hsz : sz = ![ldRows j, 1024] := by exact rfl)
    (hpay : ∀ v y, pay v y = FloatOps.truncf .bf16 bitsLt_bf16_f32 (v y) := by exact pay_trunc _)
    (hoffS' : offS' = ![512 * k.val, 0] := by exact rfl) (hszN : szN = ![ldRows (j + 4), 1024] := by exact rfl) (hsemE : semE = ldS k := by decide)
    (hszP : szP = ![chRows j, 1024] := by exact rfl) (hsS : sS = s1S ⟨j, hj⟩ := by decide) (hsR : sR = r1S ⟨j, hj⟩ := by decide)
    {α : Type} {kk : PUnit → Prog (TpuEff nD τ sig (Elt F) Λ₀ .tc) α} {Q : α → sProp 𝕄} :
    iprop(records m K ∗ levAts L lv ∗ Slot c k r ∗ (xL c ↦{xRem (j + 4)} xs m c) ∗ MnA m c fm j ∗ P1st c j ∗ Ow c (P2 c 0 + P1 c j))
      ⊢ iprop(((Slot c k (r + 1) ∗ (xL c ↦{xRem (j + 5)} xs m c) ∗ MnA m c fm (j + 1) ∗ P1st c (j + 1) ∗ Ow c (P2 c 0 + P1 c (j + 1)))
            -∗ wp frame (wpE (defs₀ (F := F)) 𝒱₀ c none) Set.univ (kk ⟨⟩) Q)
          -∗ wp frame (wpE (defs₀ (F := F)) 𝒱₀ c none) Set.univ (.op (.waitDma2 semL srcL dstL hsrcL hdstL) (fun _ =>
              .op (.load stgM (Rect.unit (s := S2048x1024) offS sz inbS).toLoadRect hl) (fun v =>
              .op (.load mineM (Rect.unit (s := S8192x1024) offM sz inbM).toLoadRect hl') (fun _ =>
              .op (.store mineM (Rect.unit (s := S8192x1024) offM' sz inbM') (pay v) Finset.univ hx hm) (fun _ =>
              .op (.enqueueDma (xM.slice (Rect.unit (s := S8192x1024) offX szN inbX) hsX)
              (.here (stgM.slice (Rect.unit (s := S2048x1024) offS' szN inbS') hsS')) (.dma semE) hsrcE hdstE htyE) (fun _ =>
              .op (.enqueueDma (mineM.slice (Rect.unit (s := S8192x1024) offP szP inbP) hsP)
              (.remote (Dev.tc d) (oM.slice (Rect.unit (s := S16384x1024) offQ szP inbQ) hsQ) (.dma sS) hsc) (.dma sR) hsrcP hdstQ htyP) kk)))))) Q) := by
  have hr : r < 6 := by omega
  have hr1 : r + 1 < 6 := by omega
  have he : j + 4 = 4 * (r + 1) + k.val := by omega
  have hj24 : j < 24 := by omega
  unfold Slot MnA P1st
  rw [ico_take _ j 24 hj24, ico_take _ j 16 hj, ico_take _ (r + 1) 6 hr1, range_put _ j, range_put _ j, f16_of_lt hj]
  iintro ⟨#Hrec, #Hlev, ⟨Hc, Hat, -, Htok, Htoks⟩, Hx, ⟨⟨Hmj, Hpend⟩, Hdone⟩, ⟨⟨⟨HtS, HtR, Ho⟩, Hp1pend⟩, Hp1done⟩, HO⟩ Hk
  iapply (ld_wait m K c k r hr j hsemL (hamt.trans (by rw [hjk]))) $$ [Hc Hat HO]
  · isplitr; · iexact Hrec
    isplitr; · iexact Hlev
    isplitl [Hc]; · iexact Hc
    isplitl [Hat]; · iexact Hat
    iexact HO
  iintro ⟨Hat, #Hr1, Hpay, HO⟩
  unfold ldPay
  icases Hpay with ⟨%f, Hs, %hf⟩
  iapply (ld_round m c k j hj24 hoffS hsz hoffM hoffM' hpay f fm (by rw [hjk]; exact hf)) $$ [Hs Hmj]
  · isplitl [Hs]; · iexact Hs
    iexact Hmj
  iintro ⟨Hs, Hmj⟩
  iapply (enq_load m K c k (r + 1) hr1 (j + 4) (hoffX.trans (by rw [he])) hoffS' (hszN.trans (by rw [he])) hsemE) $$ [Hx Hs Htok]
  · isplitr; · iexact Hrec
    isplitl [Hx]; · iexact Hx
    isplitl [Hs]; · iexists f; iexact Hs
    isplitl [Htok]; · iexact Htok
    iexact Hr1
  iintro ⟨Hx, Hc⟩
  iapply (ch_send m K c j hj hoffP hoffQ hszP hd hsS hsR) $$ [Hmj HtS HtR Ho HO]
  · isplitr; · iexact Hrec
    isplitl [Hmj]; · iexact Hmj
    isplitl [HtS]; · iexact HtS
    isplitl [HtR]; · iexact HtR
    isplitl [Ho]; · iexact Ho
    iexact HO
  iintro ⟨Hmj, HcS, HO⟩
  iapply Hk
  isplitl [Hc Hat Htoks]
  · isplitl [Hc]; · iexact Hc
    isplitl [Hat]; · iexact Hat
    isplitr; · iexact Hr1
    iexact Htoks
  isplitl [Hx]; · iexact Hx
  isplitl [Hmj Hpend Hdone]
  · isplitl [Hpend]; · iexact Hpend
    isplitl [Hmj]; · iexact Hmj
    iexact Hdone
  isplitl [Hp1pend HcS Hp1done]
  · isplitl [Hp1pend]; · iexact Hp1pend
    isplitl [HcS]; · iexact HcS
    iexact Hp1done
  iexact HO

end
end Cert.KernelIdeal.Hand
end
-- ==== Proof.StepBCD.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import proofs.«900106_g7700000000000107_dist_ag_v7x_xy2x2_y_m8192_n1024_bf16_1_alg».proof.Proof.Sched
import proofs.«900106_g7700000000000107_dist_ag_v7x_xy2x2_y_m8192_n1024_bf16_1_alg».proof.Proof.Ghost

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem step_C (K : Dev nD × Fin 70 → ℕ) (c : Dev nD) (j : ℕ) {sp sp' : Space} {s s' : Shape} {e e' : EltTy} {κ' : Kind}
    {sem : DmaSem sig} {src : Memref sig (c : Thread nD τ).2.kind sp' s' e'} {dst : Memref sig κ' sp s e} {hsrc : src.view.WordExact} {hdst : dst.view.WordExact}
    (hj : j < 16 := by decide) (hsem : sem = r2S ⟨j, hj⟩ := by decide) (hamt : dst.view.dmaCredit = chAmt j := by exact rfl)
    {α : Type} {k : PUnit → Prog (TpuEff nD τ sig (Elt F) Λ₀ .tc) α} {Q : α → sProp 𝕄} :
    iprop(records m K ∗ Cst m c j ∗ Ow c 0)
      ⊢ iprop(((Cst m c (j + 1) ∗ Ow c 0) -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  subst hsem
  unfold Cst Ow
  rw [ico_take _ j 16 hj, range_put _ j, f16_of_lt hj, ← hamt]
  iintro ⟨#HR, ⟨⟨⟨Hcr, Hat⟩, Hpend⟩, Hdone⟩, ⟨%W, HO⟩⟩ Hk
  ihave ⟨%κ, #HI⟩ := (inv_of m K (r2C c ⟨j, hj⟩) rfl) $$ HR
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_r2]; exact hamt)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_r2 m c ⟨j, hj⟩)) $$ Hpay
  unfold r2Pay
  iapply Hk
  isplitr [HO]
  · isplitl [Hpend]; · iexact Hpend
    isplitl [Hat Hp]
    · isplitl [Hat]; · iexact Hat
      iexact Hp
    iexact Hdone
  iexists _
  iexact HO

theorem step_D (K : Dev nD × Fin 70 → ℕ) (c : Dev nD) (j : ℕ)
    {spA spA' : Space} {sA sA' : Shape} {eA eA' : EltTy} {κA : Kind}
    {semA : DmaSem sig} {srcA : Memref sig (c : Thread nD τ).2.kind spA' sA' eA'} {dstA : Memref sig κA spA sA eA} {hsrcA : srcA.view.WordExact} {hdstA : dstA.view.WordExact}
    {spB spB' : Space} {sB sB' : Shape} {eB eB' : EltTy} {κB : Kind}
    {semB : DmaSem sig} {srcB : Memref sig (c : Thread nD τ).2.kind spB' sB' eB'} {dstB : Memref sig κB spB sB eB} {hsrcB : srcB.view.WordExact} {hdstB : dstB.view.WordExact}
    (hj : j < 16 := by decide) (hsemA : semA = s1S ⟨j, hj⟩ := by decide) (hamtA : dstA.view.dmaCredit = chAmt j := by exact rfl)
    (hsemB : semB = s2S ⟨j, hj⟩ := by decide) (hamtB : dstB.view.dmaCredit = chAmt j := by exact rfl)
    {α : Type} {k : PUnit → Prog (TpuEff nD τ sig (Elt F) Λ₀ .tc) α} {Q : α → sProp 𝕄} :
    iprop(records m K ∗ Dst m c j ∗ Ow c 0)
      ⊢ iprop(((Dst m c (j + 1) ∗ Ow c 0) -∗ wp frame (wpE (defs₀ (F := F)) 𝒱₀ c none) Set.univ (k ⟨⟩) Q)
          -∗ wp frame (wpE (defs₀ (F := F)) 𝒱₀ c none) Set.univ
              (.op (.waitDma2 semA srcA dstA hsrcA hdstA) (fun _ => .op (.waitDma2 semB srcB dstB hsrcB hdstB) k)) Q) := by
  subst hsemA hsemB
  unfold Dst Ow
  rw [ico_take _ j 16 hj, range_put _ j, f16_of_lt hj]
  iintro ⟨#HR, ⟨⟨⟨HcrA, HatA, HcrB, HatB⟩, Hpend⟩, Hdone⟩, ⟨%W, HO⟩⟩ Hk
  ihave ⟨%κA, #HIA⟩ := (inv_of m K (s1C c ⟨j, hj⟩) rfl) $$ HR
  ihave ⟨%κB, #HIB⟩ := (inv_of m K (s2C c ⟨j, hj⟩) rfl) $$ HR

  iapply (Rounds.wp_wait_rest_token 𝒱₀ ER (Rd m) (c : Thread nD τ) none (κ := κA) (k' := chAmt j)
      (fun K' => (wpE_waitDma2_eq 𝒱₀ (c : Thread nD τ) none Set.univ K').trans (by rw [hamtA])) (Set.mem_univ _) ()
      (O := 0) (W := W) (R := 0) (m := 0) (T := ∅)
      (by rw [Nat.zero_add, expect_s1])) $$ [HcrA HO HatA]
  · isplitr; · iexact HIA
    isplitl [HcrA]; · iexact HcrA
    isplitl [HO]; · iexact HO
    isplitr; · rw [MayWait_zero]; iempintro
    iexact HatA
  iintro ⟨HO, HatA, -, HpayA⟩

  iapply (Rounds.wp_wait_rest_token 𝒱₀ ER (Rd m) (c : Thread nD τ) none (κ := κB) (k' := chAmt j)
      (fun K' => (wpE_waitDma2_eq 𝒱₀ (c : Thread nD τ) none Set.univ K').trans (by rw [hamtB])) (Set.mem_univ _) ()
      (O := 0) (W := insert (SemLoc.dma (s1S ⟨j, hj⟩), ()) W) (R := 0) (m := 0) (T := ∅)
      (by rw [Nat.zero_add, expect_s2])) $$ [HcrB HO HatB]
  · isplitr; · iexact HIB
    isplitl [HcrB]; · iexact HcrB
    isplitl [HO]; · iexact HO
    isplitr; · rw [MayWait_zero]; iempintro
    iexact HatB
  iintro ⟨HO, HatB, -, HpayB⟩
  ihave HpA := (Entails.of_eq (rest_s1 m c ⟨j, hj⟩)) $$ HpayA
  ihave HpB := (Entails.of_eq (rest_s2 m c ⟨j, hj⟩)) $$ HpayB
  unfold s1Pay s2Pay
  iapply Hk
  isplitr [HO]
  · isplitl [Hpend]; · iexact Hpend
    isplitr [Hdone]
    · isplitl [HatA]; · iexact HatA
      isplitl [HpA]; · iexact HpA
      isplitl [HatB]; · iexact HatB
      iexact HpB
    iexact Hdone
  iexists _
  iexact HO

theorem outV_other (c : Dev nD) (i : Idx (oL c)) (h : ¬ (i 0).val / 8192 = cy c) :
    outV m c i = mineV m (srcDev (i 0).val) (ValueIdx.ix2 ⟨(i 0).val % 8192, Nat.mod_lt _ (by decide)⟩ (i 1)) := by
  unfold outV; rw [if_neg h]

private theorem ch_top (j : ℕ) (hj : j < 16) : chOff j + chRows j ≤ 4096 := by
  interval_cases j <;> decide

theorem q2_half (c : Dev nD) (j : ℕ) (hj : j < 16) (r : ℕ) (h : q2Lo c j ≤ r ∧ r < q2Lo c j + chRows j) :
    ¬ r / 8192 = cy c := by
  have h1 := cy_le c
  have h2 := cx_le c
  have h3 := ch_top j hj
  unfold q2Lo at h
  omega

-- A forwarded chunk carries rows outside both devices' own halves, where their gathered arrays agree.
theorem fwd_landed (c e : Dev nD) (he : xn e = c) (j : ℕ) (hj : j < 16)
    (off off' sz : Fin 2 → ℕ) (inb₁ : ∀ a, off a + sz a ≤ S16384x1024.size a) (inb₂ : ∀ a, off' a + sz a ≤ S16384x1024.size a)
    (hs₁ : ∀ a, (Rect.unit (s := S16384x1024) off sz inb₁).stride a = 1) (hs₂ : ∀ a, (Rect.unit (s := S16384x1024) off' sz inb₂).stride a = 1)
    (hoff : off = ![q2Lo c j, 0]) (hoff' : off' = ![q2Lo c j, 0]) (hsz : sz = ![chRows j, 1024])
    (fd : Buf (Elt F) (oL e)) :
    ((oL e ↦[((oM.slice (Rect.unit (s := S16384x1024) off' sz inb₂) hs₂).view.set : Finset (Idx (oL e)))]{fullShare}
        ((oM.slice (Rect.unit (s := S16384x1024) off' sz inb₂) hs₂).view.write (Elt F) fd
          ((oM.slice (Rect.unit (s := S16384x1024) off sz inb₁) hs₁).view.read (Elt F) (outV m c)) Finset.univ)) : sProp 𝕄)
      ⊢ r2Pay m e ⟨j, hj⟩ := by
  subst he hoff hoff' hsz
  unfold r2Pay OS
  have hset := set_slice_O e _ _ inb₂ hs₂ (q2Lo (xn e) j) (chRows j) rfl rfl
  rw [← hset]
  refine Entails.of_eq (pointsTo_congr ?_)
  intro i hi
  have hrow : q2Lo (xn e) j ≤ (i 0).val ∧ (i 0).val < q2Lo (xn e) j + chRows j := by
    rw [hset] at hi
    exact (Finset.mem_filter.mp hi).2
  obtain ⟨x, -, rfl⟩ := Finset.mem_map.mp hi
  rw [View.write_emb_of_mem _ _ (Finset.mem_univ x), View.read_apply]
  refine (cast_cast_id _ _ _).trans ?_
  exact (outV_other m (xn e) _ (q2_half (xn e) j hj _ hrow)).trans
    (outV_other m e _ (by rw [← cy_xn e]; exact q2_half (xn e) j hj _ hrow)).symm

-- Once chunk j has arrived it is sent on unchanged to the neighbour along the first axis.
theorem step_B (K : Dev nD × Fin 70 → ℕ) (c : Dev nD) (j : ℕ)
    {spW spW' : Space} {sW sW' : Shape} {eW eW' : EltTy} {κW : Kind}
    {semW : DmaSem sig} {srcW : Memref sig (c : Thread nD τ).2.kind spW' sW' eW'} {dstW : Memref sig κW spW sW eW} {hsrcW : srcW.view.WordExact} {hdstW : dstW.view.WordExact}
    {off off' sz : Fin 2 → ℕ} {inb₁ : ∀ a, off a + sz a ≤ S16384x1024.size a} {inb₂ : ∀ a, off' a + sz a ≤ S16384x1024.size a}
    {hs₁ : ∀ a, (Rect.unit (s := S16384x1024) off sz inb₁).stride a = 1} {hs₂ : ∀ a, (Rect.unit (s := S16384x1024) off' sz inb₂).stride a = 1}
    {d : Dev nD} {sS sR : DmaSem sig}
    {hsc : ((oM.slice (Rect.unit (s := S16384x1024) off' sz inb₂) hs₂ : Memref sig (Dev.tc d : Thread nD τ).2.kind .hbm _ .bf16)).view.ref.isScScratch = false}
    {hsrc : (oM.slice (Rect.unit (s := S16384x1024) off sz inb₁) hs₁).view.WordExact}
    {hdst : (oM.slice (Rect.unit (s := S16384x1024) off' sz inb₂) hs₂).view.WordExact}
    {hsem : DmaTarget.Typed .hbm (.dma sR) (.remote (Dev.tc d : Thread nD τ) (oM.slice (Rect.unit (s := S16384x1024) off' sz inb₂) hs₂) (.dma sS) hsc)}
    (hoff : off = ![q2Lo c j, 0]) (hoff' : off' = ![q2Lo c j, 0]) (hd : d = xn c)
    (hj : j < 16 := by decide) (hsemW : semW = r1S ⟨j, hj⟩ := by decide) (hamtW : dstW.view.dmaCredit = chAmt j := by exact rfl)
    (hsz : sz = ![chRows j, 1024] := by exact rfl) (hsS : sS = s2S ⟨j, hj⟩ := by decide) (hsR : sR = r2S ⟨j, hj⟩ := by decide)
    {α : Type} {k : PUnit → Prog (TpuEff nD τ sig (Elt F) Λ₀ .tc) α} {Q : α → sProp 𝕄} :
    iprop(records m K ∗ levAts L lv ∗ Bst c j ∗ Ow c (P2 c j))
      ⊢ iprop(((Bst c (j + 1) ∗ Ow c (P2 c (j + 1))) -∗ wp frame (wpE (defs₀ (F := F)) 𝒱₀ c none) Set.univ (k ⟨⟩) Q)
          -∗ wp frame (wpE (defs₀ (F := F)) 𝒱₀ c none) Set.univ
              (.op (.waitDma2 semW srcW dstW hsrcW hdstW) (fun _ =>
                .op (.enqueueDma (oM.slice (Rect.unit (s := S16384x1024) off sz inb₁) hs₁)
                  (.remote (Dev.tc d : Thread nD τ) (oM.slice (Rect.unit (s := S16384x1024) off' sz inb₂) hs₂) (.dma sS) hsc) (.dma sR) hsrc hdst hsem) k)) Q) := by
  subst hsemW hd hsS hsR
  have hsetS : ((oM.slice (Rect.unit (s := S16384x1024) off sz inb₁) hs₁).view.set : Finset (Idx (oL c))) = OS c (q2Lo c j) j := by
    unfold OS; exact set_slice_O c off sz inb₁ hs₁ _ _ hoff hsz
  have hsetD : ((oM.slice (Rect.unit (s := S16384x1024) off' sz inb₂) hs₂).view.set : Finset (Idx (oL (xn c)))) = OS (xn c) (q2Lo c j) j := by
    unfold OS; exact set_slice_O (xn c) off' sz inb₂ hs₂ _ _ hoff' hsz
  have hN : (oM.slice (Rect.unit (s := S16384x1024) off' sz inb₂) hs₂).view.amount (.dma (r2S ⟨j, hj⟩)) = chAmt j := by
    subst hsz; rfl
  have hS : ((oL c ↦[OS c (q2Lo c j) j]{fullShare} outV m c : sProp 𝕄))
      = ((oM.slice (Rect.unit (s := S16384x1024) off sz inb₁) hs₁).view.loc (c : Thread nD τ)
          ↦[(oM.slice (Rect.unit (s := S16384x1024) off sz inb₁) hs₁).view.set]{fullShare} outV m c) := by
    rw [hsetS]
  have hD : ∀ fd : Buf (Elt F) (oL (xn c)), ((oL (xn c) ↦[OS (xn c) (q2Lo c j) j]{fullShare} fd : sProp 𝕄))
      = ((oM.slice (Rect.unit (s := S16384x1024) off' sz inb₂) hs₂).view.loc (Dev.tc (xn c) : Thread nD τ)
          ↦[(oM.slice (Rect.unit (s := S16384x1024) off' sz inb₂) hs₂).view.set]{fullShare} fd) := by
    intro fd; rw [hsetD]
  unfold Bst Ow
  rw [ico_take _ j 16 hj, range_put _ j, f16_of_lt hj]
  iintro ⟨#HR, #Hlev, ⟨⟨⟨Hcr, Hat, HtS, HtR, ⟨%fd, Hdst⟩⟩, Hpend⟩, Hdone⟩, ⟨%W, HO⟩⟩ Hk
  ihave ⟨%κW', #HIW⟩ := (inv_of m K (r1C c ⟨j, hj⟩) rfl) $$ HR
  ihave ⟨%κS, #HIS⟩ := (inv_of m K (s2C c ⟨j, hj⟩) rfl) $$ HR
  ihave ⟨%κR, #HIR⟩ := (inv_of m K (r2C (xn c) ⟨j, hj⟩) rfl) $$ HR
  ihave #HrS := (reached0_of m K (s2C c ⟨j, hj⟩) rfl) $$ HR
  ihave #HrR := (reached0_of m K (r2C (xn c) ⟨j, hj⟩) rfl) $$ HR
  ihave Hmw := (mayWait_r1 (F := F) c ⟨j, hj⟩ j) $$ Hlev

  iapply (Rounds.wp_wait_rest_token 𝒱₀ ER (Rd m) (c : Thread nD τ) none (κ := κW') (k' := chAmt j)
      (fun K' => (wpE_waitDma2_eq 𝒱₀ (c : Thread nD τ) none Set.univ K').trans (by rw [hamtW])) (Set.mem_univ _) ()
      (O := P2 c j) (W := W) (R := 0) (m := 0) (T := ∅)
      (by rw [Nat.zero_add, expect_r1])) $$ [Hcr HO Hmw Hat]
  · isplitr; · iexact HIW
    isplitl [Hcr]; · iexact Hcr
    isplitl [HO]; · iexact HO
    isplitl [Hmw]; · iexact Hmw
    iexact Hat
  iintro ⟨HO, Hat, -, Hpay⟩
  ihave Hp := (Entails.of_eq (rest_r1 m c ⟨j, hj⟩)) $$ Hpay
  unfold r1Pay
  ihave Hsrc := (Entails.of_eq hS) $$ Hp
  ihave Hdst' := (Entails.of_eq (hD fd)) $$ Hdst

  iapply (Rounds.wp_send_pointsTo 𝒱₀ ER (Rd m) (c : Thread nD τ) none (κ₁ := κS) (κ₂ := κR)
      (r₁ := 0) (r₂ := 0) (d₁ := false) (d₂ := false) (q := fullShare) (fs := outV m c) (fd := fd)
      (by rw [duties_s2]; exact Finset.mem_singleton_self _) (by rw [duties_r2]; exact Finset.mem_singleton_self _)
      () () (chAmt j) hN (amount_s2 m c ⟨j, hj⟩ false) (amount_r2 m (xn c) ⟨j, hj⟩ false)
      (P2 c (j + 1)) (P2_peel c j hj) (W := insert (SemLoc.dma (r1S ⟨j, hj⟩), ()) W)
      (by rw [payload_s2]; unfold s2Pay; rw [hsetS])
      (by rw [payload_r2]; exact fwd_landed m c (xn c) (xn_xn c) j hj off off' sz inb₁ inb₂ hs₁ hs₂ hoff hoff' hsz fd))
    $$ [Hsrc Hdst' HO HtS HtR]
  · isplitr; · iexact HIS
    isplitr; · iexact HIR
    isplitl [Hsrc]; · iexact Hsrc
    isplitl [Hdst']; · iexact Hdst'
    isplitl [HO]; · iexact HO
    isplitl [HtS]; · iexact HtS
    isplitr; · iexact HrS
    isplitl [HtR]; · iexact HtR
    iexact HrR
  iintro ⟨HcS, HO⟩
  iapply Hk
  isplitr [HO]
  · isplitl [Hpend]; · iexact Hpend
    isplitr [Hdone]
    · isplitl [Hat]; · iexact Hat
      iexact HcS
    iexact Hdone
  iexists _
  iexact HO

end Cert.KernelIdeal.Hand
end
-- ==== Proof.StepFin.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import proofs.«900106_g7700000000000107_dist_ag_v7x_xy2x2_y_m8192_n1024_bf16_1_alg».proof.Proof.Sizes
import proofs.«900106_g7700000000000107_dist_ag_v7x_xy2x2_y_m8192_n1024_bf16_1_alg».proof.Proof.Sched
import proofs.«900106_g7700000000000107_dist_ag_v7x_xy2x2_y_m8192_n1024_bf16_1_alg».proof.Proof.Ghost

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem outV_own (c : Dev nD) (i : Idx (oL c)) (hi : i ∈ OB c) :
    outV m c i = mineV m c (ValueIdx.ix2 ⟨(i 0).val % 8192, Nat.mod_lt _ (by decide)⟩ (i 1)) := by
  have h := (mem_rowsO c _ _ i).mp hi
  have hy := cy_le c
  show mineV m (if (i 0).val / 8192 = cy c then c else srcDev (i 0).val) _ = _
  rw [if_pos (by omega)]

theorem mine_join (c : Dev nD) (q : PosShare TreeShare) (f : Buf (Elt F) (mL c)) :
    (mL c ↦{q} f : sProp 𝕄)
      = iprop((bigSep (Finset.range 16) fun i => mL c ↦[MS c i]{q} f) ∗ (bigSep (Finset.Ico 16 24) fun i => mL c ↦[MS c i]{q} f)) := by
  have h24 : Finset.range 24 = Finset.range 16 ∪ Finset.Ico 16 24 := by
    ext x; simp only [Finset.mem_range, Finset.mem_union, Finset.mem_Ico]; omega
  have hd : Disjoint (Finset.range 16) (Finset.Ico 16 24) := by
    rw [Finset.disjoint_left]; intro x h1 h2; simp only [Finset.mem_range, Finset.mem_Ico] at h1 h2; omega
  rw [mine_tile c q f, fin_range 24 (fun i => (mL c ↦[MS c i]{q} f : sProp 𝕄)), h24, bigSep_union hd]
  rfl

theorem own_set (c : Dev nD) (inb : ∀ a, (![8192 * cy c, 0] : Fin 2 → ℕ) a + S8192x1024.size a ≤ S16384x1024.size a)
    (hs : ∀ a, (Rect.unit (s := S16384x1024) ![8192 * cy c, 0] S8192x1024.size inb).stride a = 1) :
    ((oM.slice (Rect.unit (s := S16384x1024) ![8192 * cy c, 0] S8192x1024.size inb) hs).view.set : Finset (Idx (oL c))) = OB c :=
  set_slice_O c _ _ inb hs (8192 * cy c) 8192 rfl rfl

theorem own_value (c : Dev nD) (fo : Buf (Elt F) (oL c))
    (inb : ∀ a, (![8192 * cy c, 0] : Fin 2 → ℕ) a + S8192x1024.size a ≤ S16384x1024.size a)
    (hs : ∀ a, (Rect.unit (s := S16384x1024) ![8192 * cy c, 0] S8192x1024.size inb).stride a = 1) :
    ∀ i ∈ OB c, ((oM.slice (Rect.unit (s := S16384x1024) ![8192 * cy c, 0] S8192x1024.size inb) hs).view.write (Elt F) fo ((mineM : Memref sig .tc .vmem S8192x1024 .bf16).view.read (Elt F) (mineV m c)) Finset.univ : Buf (Elt F) (oL c)) i = outV m c i := by
  intro i hi
  have hi' := hi
  rw [← own_set c inb hs] at hi'
  obtain ⟨y, -, rfl⟩ := Finset.mem_map.mp hi'
  rw [outV_own m c _ hi]
  refine (View.write_emb_of_mem _ _ (Finset.mem_univ y)).trans ?_
  rw [cast_eq]
  show mineV m c y = _
  have hy : (y 0).val < 8192 := (y 0).isLt
  have e0 : (((oM.slice (Rect.unit (s := S16384x1024) ![8192 * cy c, 0] S8192x1024.size inb) hs).view.emb y 0 : Fin _) : ℕ) = 8192 * cy c + 1 * (y 0).val := rfl
  have e1 : (((oM.slice (Rect.unit (s := S16384x1024) ![8192 * cy c, 0] S8192x1024.size inb) hs).view.emb y 1 : Fin _) : ℕ) = 0 + 1 * (y 1).val := rfl
  congr 1
  funext a
  apply Fin.ext
  match a with
  | ⟨0, _⟩ => show (y 0).val = (((oM.slice (Rect.unit (s := S16384x1024) ![8192 * cy c, 0] S8192x1024.size inb) hs).view.emb y 0 : Fin _) : ℕ) % 8192; rw [e0]; omega
  | ⟨1, _⟩ => show (y 1).val = (((oM.slice (Rect.unit (s := S16384x1024) ![8192 * cy c, 0] S8192x1024.size inb) hs).view.emb y 1 : Fin _) : ℕ); rw [e1]; omega

theorem own_pay (c : Dev nD) (fo : Buf (Elt F) (oL c))
    (inb : ∀ a, (![8192 * cy c, 0] : Fin 2 → ℕ) a + S8192x1024.size a ≤ S16384x1024.size a)
    (hs : ∀ a, (Rect.unit (s := S16384x1024) ![8192 * cy c, 0] S8192x1024.size inb).stride a = 1) :
    iprop(((oM.slice (Rect.unit (s := S16384x1024) ![8192 * cy c, 0] S8192x1024.size inb) hs).view.loc (c : Thread nD τ) ↦[(oM.slice (Rect.unit (s := S16384x1024) ![8192 * cy c, 0] S8192x1024.size inb) hs).view.set]{fullShare}
            ((oM.slice (Rect.unit (s := S16384x1024) ![8192 * cy c, 0] S8192x1024.size inb) hs).view.write (Elt F) fo ((mineM : Memref sig .tc .vmem S8192x1024 .bf16).view.read (Elt F) (mineV m c)) Finset.univ))
        ∗ ((mineM : Memref sig .tc .vmem S8192x1024 .bf16).view.loc (c : Thread nD τ) ↦[(mineM : Memref sig .tc .vmem S8192x1024 .bf16).view.set]{shR} mineV m c))
      ⊢ (Rd (F := F) m).payload (cpC c) 0 false := by
  have hsset : ((mineM : Memref sig .tc .vmem S8192x1024 .bf16).view.set : Finset (Idx (mL c))) = Finset.univ := View.set_whole _
  rw [payload_cp, own_set c inb hs, hsset]
  unfold cpPay
  exact sep_mono_left (Entails.of_eq (pointsTo_congr (own_value m c fo inb hs)))

theorem step_own_enq (K : Dev nD × Fin 70 → ℕ) (c : Dev nD) (fm : Buf (Elt F) (mL c)) (fo : Buf (Elt F) (oL c))
    {off : Fin 2 → ℕ} {inb : ∀ a, off a + S8192x1024.size a ≤ S16384x1024.size a}
    {hs : ∀ a, (Rect.unit (s := S16384x1024) off S8192x1024.size inb).stride a = 1} {sem : DmaSem sig}
    (hoff : off = ![8192 * cy c, 0]) (hsem : sem = cpS := by decide)
    {hsrc : (mineM : Memref sig .tc .vmem S8192x1024 .bf16).view.WordExact}
    {hdst : (oM.slice (Rect.unit (s := S16384x1024) off S8192x1024.size inb) hs).view.WordExact}
    {hsem' : DmaTarget.Typed (nD := nD) (τ := τ) (p := (c : Thread nD τ).2) .vmem (.dma sem) (.here (oM.slice (Rect.unit (s := S16384x1024) off S8192x1024.size inb) hs))}
    {α : Type} {k : PUnit → Prog (TpuEff nD τ sig (Elt F) Λ₀ .tc) α} {Q : α → sProp 𝕄} :
    iprop(records m K ∗ MnB m c fm 24 ∗ (oL c ↦[OB c]{fullShare} fo) ∗ dutyTok ER (cpC c) 0 false)
      ⊢ iprop(((cred (tallyAt (cpC c) () cpAmt) ∗ (bigSep (Finset.Ico 16 24) fun i => mL c ↦[MS c i]{shL} mineV m c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineM (.here (oM.slice (Rect.unit (s := S16384x1024) off S8192x1024.size inb) hs)) (.dma sem) hsrc hdst hsem') k) Q) := by
  subst hoff hsem
  have hsset : ((mineM : Memref sig .tc .vmem S8192x1024 .bf16).view.set : Finset (Idx (mL c))) = Finset.univ := View.set_whole _
  have hN : (oM.slice (Rect.unit (s := S16384x1024) ![8192 * cy c, 0] S8192x1024.size inb) hs).view.amount (.dma cpS) = cpAmt := (amount_O rfl inb hs cpS).trans cpAmt_eq.symm
  have hhalve : (bigSep (Finset.Ico 16 24) fun i => (mL c ↦[MS c i]{fullShare} mineV m c : sProp 𝕄))
      ⊢ iprop((bigSep (Finset.Ico 16 24) fun i => mL c ↦[MS c i]{shL} mineV m c) ∗ (bigSep (Finset.Ico 16 24) fun i => mL c ↦[MS c i]{shR} mineV m c)) := by
    rw [← bigSep_sep']
    exact bigSep_mono fun i _ => (mine_halves c (MS c i) (mineV m c)).1
  have hsrcE : (mL c ↦{shR} mineV m c : sProp 𝕄) ⊢ ((mineM : Memref sig .tc .vmem S8192x1024 .bf16).view.loc (c : Thread nD τ) ↦[(mineM : Memref sig .tc .vmem S8192x1024 .bf16).view.set]{shR} mineV m c) := by
    rw [hsset]
  have hdstE : (oL c ↦[OB c]{fullShare} fo : sProp 𝕄) ⊢ ((oM.slice (Rect.unit (s := S16384x1024) ![8192 * cy c, 0] S8192x1024.size inb) hs).view.loc (c : Thread nD τ) ↦[(oM.slice (Rect.unit (s := S16384x1024) ![8192 * cy c, 0] S8192x1024.size inb) hs).view.set]{fullShare} fo) := by
    rw [own_set c inb hs]
  unfold MnB
  rw [ico_done]
  iintro ⟨#HR, ⟨-, HR16, HF⟩, Ho, Htok⟩ Hk
  ihave HF2 := hhalve $$ HF
  icases HF2 with ⟨HL, HRr⟩
  ihave Hsrc := (Entails.of_eq (mine_join c shR (mineV m c)).symm) $$ [HR16 HRr]
  · isplitl [HR16] <;> iassumption
  ihave Hsrc2 := hsrcE $$ Hsrc
  ihave Ho2 := hdstE $$ Ho
  ihave Hinv := (inv_of m K (cpC c) rfl) $$ HR
  icases Hinv with ⟨%κ, #Hinv⟩
  ihave Hr0 := (reached0_of m K (cpC c) rfl) $$ HR
  have hrule := Rounds.wp_copy_pointsTo (defs := defs₀ (F := F)) 𝒱₀ ER (Rd m) (c : Thread nD τ) none (Γ := PendingWaitsCtx.empty) (Q := Q)
      (src := (mineM : Memref sig .tc .vmem S8192x1024 .bf16)) (dst := (oM.slice (Rect.unit (s := S16384x1024) ![8192 * cy c, 0] S8192x1024.size inb) hs)) (sem := .dma cpS) (hsrc := hsrc) (hdst := hdst) (hsem := hsem') (k := k)
      (q := shR) (fs := mineV m c) (fd := fo) (r := 0) (d := false) (κ := κ)
      (by rw [duties_cp]; exact Finset.mem_singleton_self _) () cpAmt hN (amount_cp m c false) (own_pay m c fo inb hs) (Es := Set.univ)
  iapply hrule $$ [Hsrc2 Ho2 Htok Hr0]
  · isplitr; · iexact Hinv
    isplitl [Hsrc2]; · iexact Hsrc2
    isplitl [Ho2]; · iexact Ho2
    isplitl [Htok]; · iexact Htok
    iexact Hr0
  iintro Hcr
  iapply Hk
  isplitl [Hcr]; · iexact Hcr
  iexact HL

theorem step_own_wait (K : Dev nD × Fin 70 → ℕ) (c : Dev nD) {sp sp' : Space} {s s' : Shape} {e e' : EltTy} {κ' : Kind}
    {sem : DmaSem sig} {src : Memref sig (c : Thread nD τ).2.kind sp' s' e'} {dst : Memref sig κ' sp s e}
    {hsrc : src.view.WordExact} {hdst : dst.view.WordExact}
    (hsem : sem = cpS := by decide) (hamt : dst.view.dmaCredit = cpAmt := by exact rfl)
    {α : Type} {k : PUnit → Prog (TpuEff nD τ sig (Elt F) Λ₀ .tc) α} {Q : α → sProp 𝕄} :
    iprop(records m K ∗ cred (tallyAt (cpC c) () cpAmt) ∗ atPos ER (cpC c) 0 ∅ 0 ∗ Ow c 0)
      ⊢ iprop(((atPos ER (cpC c) 1 ∅ 0 ∗ (oL c ↦[OB c]{fullShare} outV m c) ∗ (mL c ↦{shR} mineV m c) ∗ Ow c 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have hrest : bigSep ((Rd (F := F) m).duties (cpC c) 0 \ ∅) (fun d => (Rd (F := F) m).payload (cpC c) 0 d)
      = iprop((oL c ↦[OB c]{fullShare} outV m c) ∗ (mL c ↦{shR} mineV m c)) := rest_cp m c
  subst hsem
  rw [← hamt]
  unfold Ow
  iintro ⟨#HR, Hcr, Hat, ⟨%W, Ho⟩⟩ Hk
  ihave Hinv := (inv_of m K (cpC c) rfl) $$ HR
  icases Hinv with ⟨%κ, #Hinv⟩
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_cp]; exact hamt)) $$ [Hcr Hat Ho]
  · isplitr; · iexact Hinv
    isplitl [Hcr]; · iexact Hcr
    isplitl [Ho]; · iexact Ho
    isplitr; · rw [MayWait_zero]; iempintro
    iexact Hat
  iintro ⟨Ho, Hat, -, Hpay⟩
  ihave Hp2 := (Entails.of_eq hrest) $$ Hpay
  icases Hp2 with ⟨Hob, Hm⟩
  iapply Hk
  isplitl [Hat]; · iexact Hat
  isplitl [Hob]; · iexact Hob
  isplitl [Hm]; · iexact Hm
  iexists _; iexact Ho

abbrev DI : Type := Fin 4 ⊕ Unit ⊕ Fin 16 ⊕ Fin 16 ⊕ Fin 16 ⊕ Fin 16

def dsem : DI → DmaSem sig
  | .inl k => ldS k
  | .inr (.inl _) => cpS
  | .inr (.inr (.inl j)) => s1S j
  | .inr (.inr (.inr (.inl j))) => r1S j
  | .inr (.inr (.inr (.inr (.inl j)))) => s2S j
  | .inr (.inr (.inr (.inr (.inr j)))) => r2S j

def undsem (s : DmaSem sig) : DI := match ck (.dma s) with
  | .bar => .inr (.inl ())
  | .ld k => .inl k
  | .cp => .inr (.inl ())
  | .s1 j => .inr (.inr (.inl j))
  | .r1 j => .inr (.inr (.inr (.inl j)))
  | .s2 j => .inr (.inr (.inr (.inr (.inl j))))
  | .r2 j => .inr (.inr (.inr (.inr (.inr j))))

theorem undsem_dsem (i : DI) : undsem (dsem i) = i := by
  rcases i with k | u | j | j | j | j
  · show undsem (ldS k) = _; unfold undsem; rw [ck_ld]
  · show undsem cpS = _; unfold undsem; rw [ck_cp]
  · show undsem (s1S j) = _; unfold undsem; rw [ck_s1]
  · show undsem (r1S j) = _; unfold undsem; rw [ck_r1]
  · show undsem (s2S j) = _; unfold undsem; rw [ck_s2]
  · show undsem (r2S j) = _; unfold undsem; rw [ck_r2]

theorem dsem_bijective : Function.Bijective dsem :=
  (Fintype.bijective_iff_injective_and_card dsem).mpr ⟨Function.LeftInverse.injective undsem_dsem, by decide⟩

def dsemE : DI ≃ DmaSem sig := Equiv.ofBijective dsem dsem_bijective

def RofI : DI → ℕ := Sum.elim (fun _ => 6) (fun _ => 1)

theorem duties_own_later (c : Dev nD) (i : DI) :
    ∀ r, RofI i ≤ r → (Rd (F := F) m).duties (((c : Thread nD τ), SemLoc.dma (dsem i)) : GSem nD τ sig) r = ∅ := by
  rcases i with k | u | j | j | j | j
  · exact duties_ld_later m c k
  · exact duties_cp_later m c
  · exact duties_s1_later m c j
  · exact duties_r1_later m c j
  · exact duties_s2_later m c j
  · exact duties_r2_later m c j

theorem close_own (K : Dev nD × Fin 70 → ℕ) (c : Dev nD) :
    iprop(records m K ∗ bigSep Finset.univ fun i : DI => atPos ER (((c : Thread nD τ), SemLoc.dma (dsem i)) : GSem nD τ sig) (RofI i) ∅ 0)
      ⊢ |={Set.univ}=> bigSep Finset.univ fun k : Fin 69 => semVal (((c : Thread nD τ), osem k) : GSem nD τ sig) 0 := by
  have e : (bigSep Finset.univ fun k : Fin 69 => (semVal (((c : Thread nD τ), osem k) : GSem nD τ sig) 0 : sProp 𝕄))
      = bigSep Finset.univ fun i : DI => semVal (((c : Thread nD τ), SemLoc.dma (dsem i)) : GSem nD τ sig) 0 :=
    bigSep_univ_equiv dsemE _
  rw [e]
  refine (bigSep_with_persistent (R := records m K)
    (Ψ := fun i : DI => iprop(|={Set.univ}=> semVal (((c : Thread nD τ), SemLoc.dma (dsem i)) : GSem nD τ sig) 0)) fun i _ => ?_).trans (bigSep_fupd _ _)
  iintro ⟨#HR, Hat⟩
  ihave Hinv := (inv_of m K (((c : Thread nD τ), SemLoc.dma (dsem i)) : GSem nD τ sig) rfl) $$ HR
  icases Hinv with ⟨%κ, #Hinv⟩
  iapply (Rounds.cell_close ER (Rd m) (Set.mem_univ κ) (fun h => h) (R := RofI i) (duties_own_later m c i))
  isplitr; · iexact Hinv
  iexact Hat

omit [FloatOps F] in
theorem atPos_own (c : Dev nD) :
    (bigSep Finset.univ fun i : DI => (atPos ER (((c : Thread nD τ), SemLoc.dma (dsem i)) : GSem nD τ sig) (RofI i) ∅ 0 : sProp 𝕄))
      = iprop((bigSep Finset.univ fun k : Fin 4 => atPos ER (ldC c k) 6 ∅ 0) ∗ atPos ER (cpC c) 1 ∅ 0
          ∗ (bigSep Finset.univ fun j : Fin 16 => atPos ER (s1C c j) 1 ∅ 0)
          ∗ (bigSep Finset.univ fun j : Fin 16 => atPos ER (r1C c j) 1 ∅ 0)
          ∗ (bigSep Finset.univ fun j : Fin 16 => atPos ER (s2C c j) 1 ∅ 0)
          ∗ (bigSep Finset.univ fun j : Fin 16 => atPos ER (r2C c j) 1 ∅ 0)) := by
  rw [bigSep_univ_sum, bigSep_univ_sum, bigSep_univ_sum, bigSep_univ_sum, bigSep_univ_sum, bigSep_univ_of_subsingleton ()]
  rfl

omit [FloatOps F] in

theorem range16_fin (Φ : Fin 16 → sProp 𝕄) : bigSep (Finset.range 16) (fun i => Φ (f16 i)) = bigSep Finset.univ Φ := by
  rw [← fin_range 16 (fun i => Φ (f16 i))]
  exact bigSep_congr fun j _ => by rw [f16_val]

theorem mine_whole (c : Dev nD) :
    iprop((bigSep (Finset.range 16) fun i => mL c ↦[MS c i]{shL} mineV m c)
        ∗ (bigSep (Finset.Ico 16 24) fun i => mL c ↦[MS c i]{shL} mineV m c) ∗ (mL c ↦{shR} mineV m c))
      ⊢ (mL c ↦{fullShare} mineV m c : sProp 𝕄) := by
  have h24 : Finset.range 24 = Finset.range 16 ∪ Finset.Ico 16 24 := by
    ext x; simp only [Finset.mem_range, Finset.mem_union, Finset.mem_Ico]; omega
  have hd : Disjoint (Finset.range 16) (Finset.Ico 16 24) := by
    rw [Finset.disjoint_left]; intro x h1 h2; simp only [Finset.mem_range, Finset.mem_Ico] at h1 h2; omega
  have e : (mL c ↦{shL} mineV m c : sProp 𝕄)
      = iprop((bigSep (Finset.range 16) fun i => mL c ↦[MS c i]{shL} mineV m c)
          ∗ (bigSep (Finset.Ico 16 24) fun i => mL c ↦[MS c i]{shL} mineV m c)) := by
    rw [mine_tile c shL (mineV m c), fin_range 24 (fun i => (mL c ↦[MS c i]{shL} mineV m c : sProp 𝕄)), h24, bigSep_union hd]
    rfl
  iintro ⟨H1, H2, HR⟩
  iapply (mine_halves c Finset.univ (mineV m c)).2
  isplitl [H1 H2]
  · iapply (Entails.of_eq e.symm); isplitl [H1] <;> iassumption
  · iexact HR

theorem stg_whole (c : Dev nD) (f₀ : Buf (Elt F) (sL c)) :
    (bigSep Finset.univ fun k : Fin 4 => iprop(∃ f, sL c ↦[SS c k.val]{fullShare} f)) ⊢ (iprop(∃ f, sL c ↦{fullShare} f) : sProp 𝕄) := by
  have hdisj : ∀ k ∈ (Finset.univ : Finset (Fin 4)), ∀ k' ∈ (Finset.univ : Finset (Fin 4)), k ≠ k' → Disjoint (SS c k.val) (SS c k'.val) :=
    fun k _ k' _ hne => by
      unfold SS; exact rowsS_disjoint c _ _ _ _ (by have : k.val ≠ k'.val := fun e => hne (Fin.ext e); omega)
  haveI : ∀ i : Fin 4, Nonempty (Buf (Elt F) (sL c)) := fun _ => ⟨f₀⟩
  iintro H
  ihave H' := (BI.bigSep_exists_pi Finset.univ (fun (k : Fin 4) (f : Buf (Elt F) (sL c)) => (sL c ↦[SS c k.val]{fullShare} f : sProp 𝕄))) $$ H
  icases H' with ⟨%fs, H⟩
  ihave H2 := (pointsTo_biUnion_join Finset.univ (fun k : Fin 4 => SS c k.val) fs (fs 0) hdisj) $$ H
  icases H2 with ⟨%g, -, H⟩
  iexists g
  iapply (Entails.of_eq ((stg_tile c fullShare g).trans (pointsTo_biUnion Finset.univ (fun k : Fin 4 => SS c k.val) hdisj).symm).symm)
  iexact H

theorem out_whole (c : Dev nD) :
    iprop((oL c ↦[OB c]{fullShare} outV m c) ∗ (bigSep (Finset.range 16) fun i => oL c ↦[OS c (q2Lo c i) i]{fullShare} outV m c)
        ∗ (bigSep (Finset.range 16) fun i => oL c ↦[OS c (q2Lo (xn c) i) i]{fullShare} outV m c))
      ⊢ (oL c ↦{fullShare} outV m c : sProp 𝕄) := by
  rw [out_tile c fullShare (outV m c), fin_range 16 (fun i => (oL c ↦[OS c (q2Lo c i) i]{fullShare} outV m c : sProp 𝕄)),
    fin_range 16 (fun i => (oL c ↦[OS c (q2Lo (xn c) i) i]{fullShare} outV m c : sProp 𝕄))]

theorem finish (K : Dev nD × Fin 70 → ℕ) (c : Dev nD) :
    iprop(records m K ∗ (bigSep (Finset.univ : Finset (Fin 4)) fun k => SlotDone c k) ∗ atPos ER (cpC c) 1 ∅ 0
        ∗ (bigSep (Finset.range 16) fun i => atPos ER (r1C c (f16 i)) 1 ∅ 0) ∗ Cst m c 16 ∗ Dst m c 16
        ∗ (xL c ↦{xRem 24} xs m c) ∗ (oL c ↦[OB c]{fullShare} outV m c) ∗ (mL c ↦{shR} mineV m c)
        ∗ (bigSep (Finset.Ico 16 24) fun i => mL c ↦[MS c i]{shL} mineV m c))
      ⊢ |={Set.univ}=> Φ₁ m c := by
  unfold Cst Dst SlotDone Φ₁ fin
  rw [ico_done, ico_done]
  simp only [bigSep_sep']
  iintro ⟨#HR, ⟨Hld, Hstg⟩, HatCp, HatR1, ⟨-, HatR2, HoX⟩, ⟨-, HatS1, HmL16, HatS2, HoY⟩, Hx, HoB, HmR, HmL⟩
  ihave Hm := (mine_whole m c) $$ [HmL16 HmL HmR]
  · isplitl [HmL16]; · iexact HmL16
    isplitl [HmL]; · iexact HmL
    iexact HmR
  ihave Hs := (stg_whole c (m (sL c))) $$ Hstg
  ihave Ho := (out_whole m c) $$ [HoB HoY HoX]
  · isplitl [HoB]; · iexact HoB
    isplitl [HoY]; · iexact HoY
    iexact HoX
  imod (close_own m K c) $$ [Hld HatCp HatS1 HatR1 HatS2 HatR2] with Hsem
  · isplitr; · iexact HR
    iapply (Entails.of_eq (atPos_own (F := F) c).symm)
    isplitl [Hld]; · iexact Hld
    isplitl [HatCp]; · iexact HatCp
    isplitl [HatS1]; · iapply (Entails.of_eq (range16_fin fun j => (atPos ER (s1C c j) 1 ∅ 0 : sProp 𝕄))); iexact HatS1
    isplitl [HatR1]; · iapply (Entails.of_eq (range16_fin fun j => (atPos ER (r1C c j) 1 ∅ 0 : sProp 𝕄))); iexact HatR1
    isplitl [HatS2]; · iapply (Entails.of_eq (range16_fin fun j => (atPos ER (s2C c j) 1 ∅ 0 : sProp 𝕄))); iexact HatS2
    iapply (Entails.of_eq (range16_fin fun j => (atPos ER (r2C c j) 1 ∅ 0 : sProp 𝕄))); iexact HatR2
  imodintro
  isplitl [Hx Ho]
  · isplitl [Hx] <;> iassumption
  isplitl [Hm Hs]
  · isplitl [Hm]; · iexists _; iexact Hm
    iexact Hs
  iexact Hsem

end Cert.KernelIdeal.Hand
end
-- ==== Proof.Body.lean ====
import proofs.«900106_g7700000000000107_dist_ag_v7x_xy2x2_y_m8192_n1024_bf16_1_alg».proof.Proof.State
import proofs.«900106_g7700000000000107_dist_ag_v7x_xy2x2_y_m8192_n1024_bf16_1_alg».proof.Proof.Cursor
import proofs.«900106_g7700000000000107_dist_ag_v7x_xy2x2_y_m8192_n1024_bf16_1_alg».proof.Proof.Offs
import proofs.«900106_g7700000000000107_dist_ag_v7x_xy2x2_y_m8192_n1024_bf16_1_alg».proof.Proof.Levels
import proofs.«900106_g7700000000000107_dist_ag_v7x_xy2x2_y_m8192_n1024_bf16_1_alg».proof.Proof.Loops
import proofs.«900106_g7700000000000107_dist_ag_v7x_xy2x2_y_m8192_n1024_bf16_1_alg».proof.Proof.Tiles
import proofs.«900106_g7700000000000107_dist_ag_v7x_xy2x2_y_m8192_n1024_bf16_1_alg».proof.Proof.Sizes
import proofs.«900106_g7700000000000107_dist_ag_v7x_xy2x2_y_m8192_n1024_bf16_1_alg».proof.Proof.Bridges
import proofs.«900106_g7700000000000107_dist_ag_v7x_xy2x2_y_m8192_n1024_bf16_1_alg».proof.Proof.StepPre
import proofs.«900106_g7700000000000107_dist_ag_v7x_xy2x2_y_m8192_n1024_bf16_1_alg».proof.Proof.StepA
import proofs.«900106_g7700000000000107_dist_ag_v7x_xy2x2_y_m8192_n1024_bf16_1_alg».proof.Proof.StepBCD
import proofs.«900106_g7700000000000107_dist_ag_v7x_xy2x2_y_m8192_n1024_bf16_1_alg».proof.Proof.StepFin

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin0 (Φ : Fin cfg0.W → sProp 𝕄) : bigSep Finset.univ Φ = iprop(emp) := by
  rw [show (Finset.univ : Finset (Fin cfg0.W)) = ∅ from Finset.univ_eq_empty, bigSep_empty]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

def bodyPost (c : Dev nD) : sProp 𝕄 := iprop(Φ₁ m c ∗ (dats m 0 c).owesAt () (t0_0 : Fin cfg0.N).succ ∗ emp)

set_option maxHeartbeats 16000000 in
set_option maxRecDepth 65536 in
-- One device's body, operation by operation in program order, from what the launch hands it to the gathered result.
theorem sound_body (c : Dev nD) :
    iprop(Φ₀ m c ∗ (dats m 0 c).owesAt () (t0_0 : Fin cfg0.N).castSucc ∗ emp)
      ⊢ wp frame (wpE (defs₀ (F := F)) 𝒱₀ c none) Set.univ (bodyAt0 (F := F) t0_0) (fun _ => bodyPost m c) := by
  unfold bodyAt0
  simp only [cc0_body_eq_skeleton]
  unfold cc0_body_skel
  simp only [k0_part1_eq_skeleton, k0_part1_skel,
    k0_part2_eq_skeleton, k0_part2_skel,
    k0_part3_eq_skeleton, k0_part3_skel,
    k0_part4_eq_skeleton, k0_part4_skel,
    k0_part5_eq_skeleton, k0_part5_skel,
    k0_part6_eq_skeleton, k0_part6_skel,
    k0_part7_eq_skeleton, k0_part7_skel,
    k0_part8_eq_skeleton, k0_part8_skel,
    k0_part9_eq_skeleton, k0_part9_skel,
    k0_part10_eq_skeleton, k0_part10_skel,
    k0_part11_eq_skeleton, k0_part11_skel,
    k0_part12_eq_skeleton, k0_part12_skel,
    k0_part13_eq_skeleton, k0_part13_skel,
    k0_part14_eq_skeleton, k0_part14_skel,
    k0_part15_eq_skeleton, k0_part15_skel,
    k0_part16_eq_skeleton, k0_part16_skel,
    k0_part17_eq_skeleton, k0_part17_skel,
    k0_part18_eq_skeleton, k0_part18_skel,
    k0_part19_eq_skeleton, k0_part19_skel,
    k0_part20_eq_skeleton, k0_part20_skel,
    k0_part21_eq_skeleton, k0_part21_skel,
    k0_part22_eq_skeleton, k0_part22_skel,
    k0_part23_eq_skeleton, k0_part23_skel,
    k0_part24_eq_skeleton, k0_part24_skel,
    k0_part25_eq_skeleton, k0_part25_skel,
    k0_part26_eq_skeleton, k0_part26_skel,
    k0_part27_eq_skeleton, k0_part27_skel,
    k0_part28_eq_skeleton, k0_part28_skel,
    k0_part29_eq_skeleton, k0_part29_skel,
    k0_part30_eq_skeleton, k0_part30_skel,
    k0_part31_eq_skeleton, k0_part31_skel,
    k0_part32_eq_skeleton, k0_part32_skel,
    k0_part33_eq_skeleton, k0_part33_skel,
    k0_part34_eq_skeleton, k0_part34_skel,
    k0_part35_eq_skeleton, k0_part35_skel,
    k0_part36_eq_skeleton, k0_part36_skel,
    k0_part37_eq_skeleton, k0_part37_skel,
    k0_part38_eq_skeleton, k0_part38_skel,
    k0_part39_eq_skeleton, k0_part39_skel,
    k0_part40_eq_skeleton, k0_part40_skel,
    k0_part41_eq_skeleton, k0_part41_skel,
    k0_part42_eq_skeleton, k0_part42_skel]
  simp only [semSignalWord, semWaitWord, Prog.lift, Prog.bind_op, Prog.bind_ret, Prog.pure_eq_ret, wp_deviceId]
  unfold Φ₀ start ghost
  iintro ⟨⟨⟨⟨%K, #Hrec, Hpos, Htok⟩, Hcr, #Hlev, Hx, ⟨%fo, Hout⟩⟩, ⟨%fm, Hmine⟩, ⟨%fs, Hstg⟩⟩, Ho, -⟩
  unfold Dat.owesAt Pipeline.owesWithin
  icases Ho with ⟨%W, %hW, HO⟩
  rw [show (dats m 0 c).owed (t0_0 : Fin cfg0.N).castSucc = O₀ c from rfl]

  ihave Hp := (positions_split (F := F) c) $$ Hpos
  icases Hp with ⟨HaBar, HaLd, HaCp, HaS1, HaR1, HaS2, HaR2⟩
  ihave Ht := (payToks_split (F := F) c) $$ Htok
  icases Ht with ⟨HtBY, HtBX, HtLd, HtCp, HtP1, HtP2⟩
  ihave Hc := (creds_split (F := F) c) $$ Hcr
  icases Hc with ⟨HcBar, HcR1, HcR2⟩
  ihave Ho := (out_split (F := F) c fo) $$ Hout
  icases Ho with ⟨HoB, HoY, HoX⟩
  ihave Hs := (stg_split (F := F) c fs) $$ Hstg
  ihave Hs4 := (Entails.of_eq (bigSep_fin4 (F := F) (fun k : Fin 4 => iprop(∃ f, sL c ↦[SS c k.val]{fullShare} f)))) $$ Hs
  icases Hs4 with ⟨Hst0, Hst1, Hst2, Hst3⟩
  ihave HaLd4 := (Entails.of_eq (bigSep_fin4 (F := F) (fun k : Fin 4 => atPos ER (ldC c k) 0 ∅ 0))) $$ HaLd
  icases HaLd4 with ⟨HaL0, HaL1, HaL2, HaL3⟩
  ihave HtLd4 := (Entails.of_eq (bigSep_fin4 (F := F) (fun k : Fin 4 => bigSep (Finset.Ico 0 6) fun r' => dutyTok ER (ldC c k) r' false))) $$ HtLd
  icases HtLd4 with ⟨HtL0, HtL1, HtL2, HtL3⟩
  ihave Hmn := (MnA_intro m c fm) $$ Hmine
  ihave Hx : (xL c ↦{xRem 0} xs m c : sProp 𝕄) $$ [Hx]
  · iexact Hx
  ihave HO : Ow c (O₀ c) $$ [HO]
  · unfold Ow; iexists W; iexact HO
  unfold O₀

  iapply (step_sigY m K c (hd := Fin.ext (k0_dev1_eq c)) (O := P2 c 0 + P1 c 0 + tallyAt (barC (xn c)) () 1) (fo := fo)) $$ [HO HtBY HoY]
  · iframe # ∗
  iintro HO
  iapply (step_sigX m K c (hd := Fin.ext (k0_dev2_eq c)) (O := P2 c 0 + P1 c 0) (fo := fo)) $$ [HO HtBX HoX]
  · iframe # ∗
  iintro HO

  iapply (step_enq0 m K c 0 (hoffX := off1_0 c)) $$ [Hx Hst0 HaL0 HtL0]
  · iframe # ∗ <;> iexact Hx
  iintro ⟨Hx, Hs0⟩
  iapply (step_enq0 m K c 1 (hoffX := off1_32 c)) $$ [Hx Hst1 HaL1 HtL1]
  · iframe # ∗ <;> iexact Hx
  iintro ⟨Hx, Hs1⟩
  iapply (step_enq0 m K c 2 (hoffX := off2_64 c)) $$ [Hx Hst2 HaL2 HtL2]
  · iframe # ∗ <;> iexact Hx
  iintro ⟨Hx, Hs2⟩
  iapply (step_enq0 m K c 3 (hoffX := off3_128 c)) $$ [Hx Hst3 HaL3 HtL3]
  · iframe # ∗ <;> iexact Hx
  iintro ⟨Hx, Hs3⟩

  iapply (step_barwait m K c) $$ [HcBar HaBar HO]
  · iframe # ∗
  iintro ⟨HO, HaBar, HpY, HpX⟩
  ihave Hp1 := (P1st_intro (F := F) c) $$ [HtP1 HpY]
  · iframe # ∗
  ihave Hb := (Bst_intro (F := F) c) $$ [HcR1 HaR1 HtP2 HpX]
  · iframe # ∗
  ihave Hcs := (Cst_intro m c) $$ [HcR2 HaR2]
  · iframe # ∗

  iapply (step_A1 m K c 0 0 0 fm (hoffM := off4_0 c) (hoffM' := off4_0 c) (hoffX := off5_256 c) (hoffP := off1_0 c) (hoffQ := off6_0 c) (hd := Fin.ext (k0_dev3_eq c))) $$ [Hs0 Hx Hmn Hp1 HO]
  · iframe # ∗ <;> iexact Hx
  iintro ⟨Hs0, Hx, Hmn, Hp1, HO⟩
  iapply (step_A1 m K c 1 1 0 fm (hoffM := off4_32 c) (hoffM' := off4_32 c) (hoffX := off7_512 c) (hoffP := off1_32 c) (hoffQ := off6_32 c) (hd := Fin.ext (k0_dev4_eq c))) $$ [Hs1 Hx Hmn Hp1 HO]
  · iframe # ∗ <;> iexact Hx
  iintro ⟨Hs1, Hx, Hmn, Hp1, HO⟩

  iapply (step_A1 m K c 2 2 0 fm (hoffM := off8_64 c) (hoffM' := off8_64 c) (hoffX := off7_1024 c) (hoffP := off2_64 c) (hoffQ := off9_64 c) (hd := Fin.ext (k0_dev5_eq c))) $$ [Hs2 Hx Hmn Hp1 HO]
  · iframe # ∗ <;> iexact Hx
  iintro ⟨Hs2, Hx, Hmn, Hp1, HO⟩
  iapply (step_A1 m K c 3 3 0 fm (hoffM := off10_128 c) (hoffM' := off10_128 c) (hoffX := off7_1536 c) (hoffP := off3_128 c) (hoffQ := off11_128 c) (hd := Fin.ext (k0_dev6_eq c))) $$ [Hs3 Hx Hmn Hp1 HO]
  · iframe # ∗ <;> iexact Hx
  iintro ⟨Hs3, Hx, Hmn, Hp1, HO⟩

  iapply (step_A1 m K c 4 0 1 fm (hoffM := off12_256 c) (hoffM' := off12_256 c) (hoffX := off7_2048 c) (hoffP := off5_256 c) (hoffQ := off13_256 c) (hd := Fin.ext (k0_dev7_eq c))) $$ [Hs0 Hx Hmn Hp1 HO]
  · iframe # ∗ <;> iexact Hx
  iintro ⟨Hs0, Hx, Hmn, Hp1, HO⟩
  iapply (step_A1 m K c 5 1 1 fm (hoffM := off14_512 c) (hoffM' := off14_512 c) (hoffX := off7_2560 c) (hoffP := off7_512 c) (hoffQ := off15_512 c) (hd := Fin.ext (k0_dev8_eq c))) $$ [Hs1 Hx Hmn Hp1 HO]
  · iframe # ∗ <;> iexact Hx
  iintro ⟨Hs1, Hx, Hmn, Hp1, HO⟩
  iapply (step_A1 m K c 6 2 1 fm (hoffM := off14_1024 c) (hoffM' := off14_1024 c) (hoffX := off7_3072 c) (hoffP := off7_1024 c) (hoffQ := off15_1024 c) (hd := Fin.ext (k0_dev9_eq c))) $$ [Hs2 Hx Hmn Hp1 HO]
  · iframe # ∗ <;> iexact Hx
  iintro ⟨Hs2, Hx, Hmn, Hp1, HO⟩
  iapply (step_A1 m K c 7 3 1 fm (hoffM := off14_1536 c) (hoffM' := off14_1536 c) (hoffX := off5_3584 c) (hoffP := off7_1536 c) (hoffQ := off15_1536 c) (hd := Fin.ext (k0_dev10_eq c))) $$ [Hs3 Hx Hmn Hp1 HO]
  · iframe # ∗ <;> iexact Hx
  iintro ⟨Hs3, Hx, Hmn, Hp1, HO⟩

  iapply (step_A1 m K c 8 0 2 fm (hoffM := off14_2048 c) (hoffM' := off14_2048 c) (hoffX := off3_3840 c) (hoffP := off7_2048 c) (hoffQ := off15_2048 c) (hd := Fin.ext (k0_dev11_eq c))) $$ [Hs0 Hx Hmn Hp1 HO]
  · iframe # ∗ <;> iexact Hx
  iintro ⟨Hs0, Hx, Hmn, Hp1, HO⟩
  iapply (step_A1 m K c 9 1 2 fm (hoffM := off14_2560 c) (hoffM' := off14_2560 c) (hoffX := off2_3968 c) (hoffP := off7_2560 c) (hoffQ := off15_2560 c) (hd := Fin.ext (k0_dev12_eq c))) $$ [Hs1 Hx Hmn Hp1 HO]
  · iframe # ∗ <;> iexact Hx
  iintro ⟨Hs1, Hx, Hmn, Hp1, HO⟩
  iapply (step_A1 m K c 10 2 2 fm (hoffM := off14_3072 c) (hoffM' := off14_3072 c) (hoffX := off1_4032 c) (hoffP := off7_3072 c) (hoffQ := off15_3072 c) (hd := Fin.ext (k0_dev13_eq c))) $$ [Hs2 Hx Hmn Hp1 HO]
  · iframe # ∗ <;> iexact Hx
  iintro ⟨Hs2, Hx, Hmn, Hp1, HO⟩
  iapply (step_A1 m K c 11 3 2 fm (hoffM := off12_3584 c) (hoffM' := off12_3584 c) (hoffX := off1_4064 c) (hoffP := off5_3584 c) (hoffQ := off13_3584 c) (hd := Fin.ext (k0_dev14_eq c))) $$ [Hs3 Hx Hmn Hp1 HO]
  · iframe # ∗ <;> iexact Hx
  iintro ⟨Hs3, Hx, Hmn, Hp1, HO⟩

  iapply (step_A1 m K c 12 0 3 fm (hoffM := off10_3840 c) (hoffM' := off10_3840 c) (hoffX := off16_0 c) (hoffP := off3_3840 c) (hoffQ := off11_3840 c) (hd := Fin.ext (k0_dev15_eq c))) $$ [Hs0 Hx Hmn Hp1 HO]
  · iframe # ∗ <;> iexact Hx
  iintro ⟨Hs0, Hx, Hmn, Hp1, HO⟩
  iapply (step_A1 m K c 13 1 3 fm (hoffM := off8_3968 c) (hoffM' := off8_3968 c) (hoffX := off16_512 c) (hoffP := off2_3968 c) (hoffQ := off9_3968 c) (hd := Fin.ext (k0_dev16_eq c))) $$ [Hs1 Hx Hmn Hp1 HO]
  · iframe # ∗ <;> iexact Hx
  iintro ⟨Hs1, Hx, Hmn, Hp1, HO⟩
  iapply (step_A1 m K c 14 2 3 fm (hoffM := off4_4032 c) (hoffM' := off4_4032 c) (hoffX := off16_1024 c) (hoffP := off1_4032 c) (hoffQ := off6_4032 c) (hd := Fin.ext (k0_dev17_eq c))) $$ [Hs2 Hx Hmn Hp1 HO]
  · iframe # ∗ <;> iexact Hx
  iintro ⟨Hs2, Hx, Hmn, Hp1, HO⟩
  iapply (step_A1 m K c 15 3 3 fm (hoffM := off4_4064 c) (hoffM' := off4_4064 c) (hoffX := off16_1536 c) (hoffP := off1_4064 c) (hoffQ := off6_4064 c) (hd := Fin.ext (k0_dev18_eq c))) $$ [Hs3 Hx Hmn Hp1 HO]
  · iframe # ∗ <;> iexact Hx
  iintro ⟨Hs3, Hx, Hmn, Hp1, HO⟩

  ihave Hmn := (MnA_to_B m c fm) $$ Hmn
  iapply (step_A2 m K c 16 0 4 fm (hoffM := off17_0 c) (hoffM' := off17_0 c) (hoffX := off16_2048 c)) $$ [Hs0 Hx Hmn HO]
  · iframe # ∗ <;> iexact Hx
  iintro ⟨Hs0, Hx, Hmn, HO⟩
  iapply (step_A2 m K c 17 1 4 fm (hoffM := off17_512 c) (hoffM' := off17_512 c) (hoffX := off16_2560 c)) $$ [Hs1 Hx Hmn HO]
  · iframe # ∗ <;> iexact Hx
  iintro ⟨Hs1, Hx, Hmn, HO⟩
  iapply (step_A2 m K c 18 2 4 fm (hoffM := off17_1024 c) (hoffM' := off17_1024 c) (hoffX := off16_3072 c)) $$ [Hs2 Hx Hmn HO]
  · iframe # ∗ <;> iexact Hx
  iintro ⟨Hs2, Hx, Hmn, HO⟩
  iapply (step_A2 m K c 19 3 4 fm (hoffM := off17_1536 c) (hoffM' := off17_1536 c) (hoffX := off16_3584 c)) $$ [Hs3 Hx Hmn HO]
  · iframe # ∗ <;> iexact Hx
  iintro ⟨Hs3, Hx, Hmn, HO⟩
  iapply (step_A3 m K c 20 0 fm (hoffM := off17_2048 c) (hoffM' := off17_2048 c)) $$ [Hs0 Hmn HO]
  · iframe # ∗
  iintro ⟨Hd0, Hmn, HO⟩
  iapply (step_A3 m K c 21 1 fm (hoffM := off17_2560 c) (hoffM' := off17_2560 c)) $$ [Hs1 Hmn HO]
  · iframe # ∗
  iintro ⟨Hd1, Hmn, HO⟩
  iapply (step_A3 m K c 22 2 fm (hoffM := off17_3072 c) (hoffM' := off17_3072 c)) $$ [Hs2 Hmn HO]
  · iframe # ∗
  iintro ⟨Hd2, Hmn, HO⟩
  iapply (step_A3 m K c 23 3 fm (hoffM := off17_3584 c) (hoffM' := off17_3584 c)) $$ [Hs3 Hmn HO]
  · iframe # ∗
  iintro ⟨Hd3, Hmn, HO⟩

  iapply (step_own_enq m K c fm (hoff := off18 c) (fo := fo)) $$ [Hmn HoB HtCp]
  · iframe # ∗
  iintro ⟨HcCp, HmL⟩

  ihave HO := (Entails.of_eq (show Ow (F := F) c (P2 c 0 + P1 c 16) = Ow c (P2 c 0) by rw [P1_end, add_zero])) $$ HO

  iapply (step_B m K c 0 (hoff := off19_0 c) (hoff' := off19_0 c) (hd := Fin.ext (k0_dev19_eq c))) $$ [Hb HO]
  · iframe # ∗
  iintro ⟨Hb, HO⟩
  iapply (step_B m K c 1 (hoff := off19_32 c) (hoff' := off19_32 c) (hd := Fin.ext (k0_dev20_eq c))) $$ [Hb HO]
  · iframe # ∗
  iintro ⟨Hb, HO⟩
  iapply (step_B m K c 2 (hoff := off20_64 c) (hoff' := off20_64 c) (hd := Fin.ext (k0_dev21_eq c))) $$ [Hb HO]
  · iframe # ∗
  iintro ⟨Hb, HO⟩
  iapply (step_B m K c 3 (hoff := off21_128 c) (hoff' := off21_128 c) (hd := Fin.ext (k0_dev22_eq c))) $$ [Hb HO]
  · iframe # ∗
  iintro ⟨Hb, HO⟩
  iapply (step_B m K c 4 (hoff := off22_256 c) (hoff' := off22_256 c) (hd := Fin.ext (k0_dev23_eq c))) $$ [Hb HO]
  · iframe # ∗
  iintro ⟨Hb, HO⟩
  iapply (step_B m K c 5 (hoff := off23_512 c) (hoff' := off23_512 c) (hd := Fin.ext (k0_dev24_eq c))) $$ [Hb HO]
  · iframe # ∗
  iintro ⟨Hb, HO⟩
  iapply (step_B m K c 6 (hoff := off23_1024 c) (hoff' := off23_1024 c) (hd := Fin.ext (k0_dev25_eq c))) $$ [Hb HO]
  · iframe # ∗
  iintro ⟨Hb, HO⟩
  iapply (step_B m K c 7 (hoff := off23_1536 c) (hoff' := off23_1536 c) (hd := Fin.ext (k0_dev26_eq c))) $$ [Hb HO]
  · iframe # ∗
  iintro ⟨Hb, HO⟩
  iapply (step_B m K c 8 (hoff := off23_2048 c) (hoff' := off23_2048 c) (hd := Fin.ext (k0_dev27_eq c))) $$ [Hb HO]
  · iframe # ∗
  iintro ⟨Hb, HO⟩
  iapply (step_B m K c 9 (hoff := off23_2560 c) (hoff' := off23_2560 c) (hd := Fin.ext (k0_dev28_eq c))) $$ [Hb HO]
  · iframe # ∗
  iintro ⟨Hb, HO⟩
  iapply (step_B m K c 10 (hoff := off23_3072 c) (hoff' := off23_3072 c) (hd := Fin.ext (k0_dev29_eq c))) $$ [Hb HO]
  · iframe # ∗
  iintro ⟨Hb, HO⟩
  iapply (step_B m K c 11 (hoff := off22_3584 c) (hoff' := off22_3584 c) (hd := Fin.ext (k0_dev30_eq c))) $$ [Hb HO]
  · iframe # ∗
  iintro ⟨Hb, HO⟩
  iapply (step_B m K c 12 (hoff := off21_3840 c) (hoff' := off21_3840 c) (hd := Fin.ext (k0_dev31_eq c))) $$ [Hb HO]
  · iframe # ∗
  iintro ⟨Hb, HO⟩
  iapply (step_B m K c 13 (hoff := off20_3968 c) (hoff' := off20_3968 c) (hd := Fin.ext (k0_dev32_eq c))) $$ [Hb HO]
  · iframe # ∗
  iintro ⟨Hb, HO⟩
  iapply (step_B m K c 14 (hoff := off19_4032 c) (hoff' := off19_4032 c) (hd := Fin.ext (k0_dev33_eq c))) $$ [Hb HO]
  · iframe # ∗
  iintro ⟨Hb, HO⟩
  iapply (step_B m K c 15 (hoff := off19_4064 c) (hoff' := off19_4064 c) (hd := Fin.ext (k0_dev34_eq c))) $$ [Hb HO]
  · iframe # ∗
  iintro ⟨Hb, HO⟩

  ihave HO := (Entails.of_eq (show Ow (F := F) c (P2 c 16) = Ow c 0 by rw [P2_end])) $$ HO

  iapply (step_C m K c 0) $$ [Hcs HO]
  · iframe # ∗
  iintro ⟨Hcs, HO⟩
  iapply (step_C m K c 1) $$ [Hcs HO]
  · iframe # ∗
  iintro ⟨Hcs, HO⟩
  iapply (step_C m K c 2) $$ [Hcs HO]
  · iframe # ∗
  iintro ⟨Hcs, HO⟩
  iapply (step_C m K c 3) $$ [Hcs HO]
  · iframe # ∗
  iintro ⟨Hcs, HO⟩
  iapply (step_C m K c 4) $$ [Hcs HO]
  · iframe # ∗
  iintro ⟨Hcs, HO⟩
  iapply (step_C m K c 5) $$ [Hcs HO]
  · iframe # ∗
  iintro ⟨Hcs, HO⟩
  iapply (step_C m K c 6) $$ [Hcs HO]
  · iframe # ∗
  iintro ⟨Hcs, HO⟩
  iapply (step_C m K c 7) $$ [Hcs HO]
  · iframe # ∗
  iintro ⟨Hcs, HO⟩
  iapply (step_C m K c 8) $$ [Hcs HO]
  · iframe # ∗
  iintro ⟨Hcs, HO⟩
  iapply (step_C m K c 9) $$ [Hcs HO]
  · iframe # ∗
  iintro ⟨Hcs, HO⟩
  iapply (step_C m K c 10) $$ [Hcs HO]
  · iframe # ∗
  iintro ⟨Hcs, HO⟩
  iapply (step_C m K c 11) $$ [Hcs HO]
  · iframe # ∗
  iintro ⟨Hcs, HO⟩
  iapply (step_C m K c 12) $$ [Hcs HO]
  · iframe # ∗
  iintro ⟨Hcs, HO⟩
  iapply (step_C m K c 13) $$ [Hcs HO]
  · iframe # ∗
  iintro ⟨Hcs, HO⟩
  iapply (step_C m K c 14) $$ [Hcs HO]
  · iframe # ∗
  iintro ⟨Hcs, HO⟩
  iapply (step_C m K c 15) $$ [Hcs HO]
  · iframe # ∗
  iintro ⟨Hcs, HO⟩

  ihave Hd := (Dst_intro m c) $$ [Hp1 Hb HaS1 HaS2]
  · iframe # ∗
  icases Hd with ⟨Hd, HaR1'⟩
  iapply (step_D m K c 0) $$ [Hd HO]
  · iframe # ∗
  iintro ⟨Hd, HO⟩
  iapply (step_D m K c 1) $$ [Hd HO]
  · iframe # ∗
  iintro ⟨Hd, HO⟩
  iapply (step_D m K c 2) $$ [Hd HO]
  · iframe # ∗
  iintro ⟨Hd, HO⟩
  iapply (step_D m K c 3) $$ [Hd HO]
  · iframe # ∗
  iintro ⟨Hd, HO⟩
  iapply (step_D m K c 4) $$ [Hd HO]
  · iframe # ∗
  iintro ⟨Hd, HO⟩
  iapply (step_D m K c 5) $$ [Hd HO]
  · iframe # ∗
  iintro ⟨Hd, HO⟩
  iapply (step_D m K c 6) $$ [Hd HO]
  · iframe # ∗
  iintro ⟨Hd, HO⟩
  iapply (step_D m K c 7) $$ [Hd HO]
  · iframe # ∗
  iintro ⟨Hd, HO⟩
  iapply (step_D m K c 8) $$ [Hd HO]
  · iframe # ∗
  iintro ⟨Hd, HO⟩
  iapply (step_D m K c 9) $$ [Hd HO]
  · iframe # ∗
  iintro ⟨Hd, HO⟩
  iapply (step_D m K c 10) $$ [Hd HO]
  · iframe # ∗
  iintro ⟨Hd, HO⟩
  iapply (step_D m K c 11) $$ [Hd HO]
  · iframe # ∗
  iintro ⟨Hd, HO⟩
  iapply (step_D m K c 12) $$ [Hd HO]
  · iframe # ∗
  iintro ⟨Hd, HO⟩
  iapply (step_D m K c 13) $$ [Hd HO]
  · iframe # ∗
  iintro ⟨Hd, HO⟩
  iapply (step_D m K c 14) $$ [Hd HO]
  · iframe # ∗
  iintro ⟨Hd, HO⟩
  iapply (step_D m K c 15) $$ [Hd HO]
  · iframe # ∗
  iintro ⟨Hd, HO⟩

  iapply (step_own_wait m K c) $$ [HcCp HaCp HO]
  · iframe # ∗
  iintro ⟨HaCp, HoB, HmR, HO⟩

  rw [wp_ret]
  imod (finish m K c) $$ [Hd0 Hd1 Hd2 Hd3 HaCp HaR1' Hcs Hd Hx HoB HmR HmL] with HΦ
  · isplitr; · iexact Hrec
    isplitl [Hd0 Hd1 Hd2 Hd3]
    · iapply (Entails.of_eq (bigSep_fin4 (F := F) _).symm)
      iframe # ∗
    iframe # ∗
  imodintro
  unfold bodyPost Dat.owesAt Pipeline.owesWithin
  rw [show (dats m 0 c).owed (t0_0 : Fin cfg0.N).succ = 0 from rfl]
  unfold Ow
  icases HO with ⟨%W', HO⟩
  isplitl [HΦ]; · iexact HΦ
  isplitl [HO]
  · iexists W'
    isplitr; · ipureintro; exact fun _ _ => Or.inl trivial
    iexact HO
  iempintro

theorem body_obligation (c : Dev nD) : BodyObligation (dats (F := F) m 0 c) (defs₀ (F := F)) 𝒱₀ () Set.univ := fun t => by
  rw [fin_N0 t, bigSep_fin0, bigSep_fin0]
  exact sound_body m c

end Cert.KernelIdeal.Hand
end
-- ==== Proof.Launch.lean ====
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import proofs.«900106_g7700000000000107_dist_ag_v7x_xy2x2_y_m8192_n1024_bf16_1_alg».proof.Proof.Ghost
import proofs.«900106_g7700000000000107_dist_ag_v7x_xy2x2_y_m8192_n1024_bf16_1_alg».proof.Proof.Levels
import Mathlib.Algebra.BigOperators.Pi
import Mathlib.Algebra.BigOperators.Finsupp.Basic
import Mathlib.Algebra.BigOperators.Group.Finset.Piecewise

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem tcCell_eq_iff {a b : Dev nD} {s t : SemLoc sig} :
    Iff ((((a : Thread nD τ), s) : GSem nD τ sig) = ((b : Thread nD τ), t)) (a = b ∧ s = t) :=
  ⟨fun h => ⟨congrArg (fun g : GSem nD τ sig => g.1.1) h, congrArg Prod.snd h⟩, fun ⟨h1, h2⟩ => h1 ▸ h2 ▸ rfl⟩

theorem r1S_inj {i j : Fin 16} (h : (SemLoc.dma (r1S i) : SemLoc sig) = .dma (r1S j)) : i = j := by
  have := ck_r1 i; rw [h, ck_r1] at this; exact (CK.r1.inj this).symm
theorem r2S_inj {i j : Fin 16} (h : (SemLoc.dma (r2S i) : SemLoc sig) = .dma (r2S j)) : i = j := by
  have := ck_r2 i; rw [h, ck_r2] at this; exact (CK.r2.inj this).symm
theorem r1S_ne_r2S (i j : Fin 16) : (SemLoc.dma (r1S i) : SemLoc sig) ≠ .dma (r2S j) := fun h => by
  have := ck_r1 i; rw [h, ck_r2] at this; exact CK.noConfusion this
theorem bar_ne_r1S (j : Fin 16) : (SemLoc.reg barS : SemLoc sig) ≠ .dma (r1S j) := nofun
theorem bar_ne_r2S (j : Fin 16) : (SemLoc.reg barS : SemLoc sig) ≠ .dma (r2S j) := nofun

theorem P1_apply (d : Dev nD) (g : GSem nD τ sig) :
    P1 d 0 g () = ∑ i : Fin 16, if g = r1C (yn d) i then chAmt i.val else 0 := by
  unfold P1
  rw [Finset.filter_true_of_mem (fun i _ => Nat.zero_le _), Finset.sum_apply, Finsupp.finset_sum_apply]
  exact Finset.sum_congr rfl fun i _ => by rw [tallyAt_apply]; simp only [and_true]
theorem P2_apply (d : Dev nD) (g : GSem nD τ sig) :
    P2 d 0 g () = ∑ i : Fin 16, if g = r2C (xn d) i then chAmt i.val else 0 := by
  unfold P2
  rw [Finset.filter_true_of_mem (fun i _ => Nat.zero_le _), Finset.sum_apply, Finsupp.finset_sum_apply]
  exact Finset.sum_congr rfl fun i _ => by rw [tallyAt_apply]; simp only [and_true]

theorem O₀_apply (d : Dev nD) (g : GSem nD τ sig) :
    O₀ d g () = (∑ i : Fin 16, if g = r2C (xn d) i then chAmt i.val else 0) + (∑ i : Fin 16, if g = r1C (yn d) i then chAmt i.val else 0)
      + (if g = barC (xn d) then 1 else 0) + (if g = barC (yn d) then 1 else 0) := by
  unfold O₀
  rw [Pi.add_apply, Finsupp.add_apply, Pi.add_apply, Finsupp.add_apply, Pi.add_apply, Finsupp.add_apply, P1_apply, P2_apply,
    tallyAt_apply, tallyAt_apply]
  simp only [and_true]

theorem owed_bar (d c : Dev nD) : O₀ d (barC c) () = (if d = xn c then 1 else 0) + (if d = yn c then 1 else 0) := by
  rw [O₀_apply, Finset.sum_eq_zero (fun i _ => if_neg fun h => bar_ne_r2S i (tcCell_eq_iff.mp h).2),
    Finset.sum_eq_zero (fun i _ => if_neg fun h => bar_ne_r1S i (tcCell_eq_iff.mp h).2), Nat.add_zero, Nat.zero_add]
  congr 1
  · by_cases h : d = xn c
    · subst h; rw [xn_xn, if_pos rfl, if_pos rfl]
    · rw [if_neg h, if_neg fun h' => h (by rw [(tcCell_eq_iff.mp h').1, xn_xn])]
  · by_cases h : d = yn c
    · subst h; rw [yn_yn, if_pos rfl, if_pos rfl]
    · rw [if_neg h, if_neg fun h' => h (by rw [(tcCell_eq_iff.mp h').1, yn_yn])]

theorem owed_r1 (d c : Dev nD) (j : Fin 16) : O₀ d (r1C c j) () = if d = yn c then chAmt j.val else 0 := by
  rw [O₀_apply, Finset.sum_eq_zero (fun i _ => if_neg fun h => r1S_ne_r2S j i (tcCell_eq_iff.mp h).2),
    if_neg (fun h => bar_ne_r1S j (tcCell_eq_iff.mp h).2.symm), if_neg (fun h => bar_ne_r1S j (tcCell_eq_iff.mp h).2.symm)]
  simp only [Nat.zero_add, Nat.add_zero]
  by_cases h : d = yn c
  · subst h
    rw [if_pos rfl, yn_yn, Finset.sum_eq_single j (fun i _ hi => if_neg fun h' => hi (r1S_inj (tcCell_eq_iff.mp h').2).symm)
      (fun hj => absurd (Finset.mem_univ j) hj), if_pos rfl]
  · rw [if_neg h]
    exact Finset.sum_eq_zero fun i _ => if_neg fun h' => h (by rw [(tcCell_eq_iff.mp h').1, yn_yn])

theorem owed_r2 (d c : Dev nD) (j : Fin 16) : O₀ d (r2C c j) () = if d = xn c then chAmt j.val else 0 := by
  rw [O₀_apply, Finset.sum_eq_zero (s := Finset.univ) (f := fun i : Fin 16 => if r2C c j = r1C (yn d) i then chAmt i.val else 0)
      (fun i _ => if_neg fun h => r1S_ne_r2S i j (tcCell_eq_iff.mp h).2.symm),
    if_neg (fun h => bar_ne_r2S j (tcCell_eq_iff.mp h).2.symm), if_neg (fun h => bar_ne_r2S j (tcCell_eq_iff.mp h).2.symm)]
  simp only [Nat.zero_add, Nat.add_zero]
  by_cases h : d = xn c
  · subst h
    rw [if_pos rfl, xn_xn, Finset.sum_eq_single j (fun i _ hi => if_neg fun h' => hi (r2S_inj (tcCell_eq_iff.mp h').2).symm)
      (fun hj => absurd (Finset.mem_univ j) hj), if_pos rfl]
  · rw [if_neg h]
    exact Finset.sum_eq_zero fun i _ => if_neg fun h' => h (by rw [(tcCell_eq_iff.mp h').1, xn_xn])

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_r1 (c : Dev nD) (j : Fin 16) :
    tallyOn (r1C c j) (launchCredit (Pipeline.owing O₀) 0 (r1C c j)) = (tallyAt (r1C c j) () (chAmt j.val) : CellTallies nD τ sig Unit) := by
  unfold tallyAt; refine congrArg _ (Finsupp.ext fun u => ?_); cases u
  rw [Pipeline.launchCredit_owing, Finsupp.single_eq_same, Finset.sum_congr rfl fun d _ => owed_r1 d c j,
    Finset.sum_ite_eq' Finset.univ (yn c) fun _ => chAmt j.val, if_pos (Finset.mem_univ _)]

theorem launch_r2 (c : Dev nD) (j : Fin 16) :
    tallyOn (r2C c j) (launchCredit (Pipeline.owing O₀) 0 (r2C c j)) = (tallyAt (r2C c j) () (chAmt j.val) : CellTallies nD τ sig Unit) := by
  unfold tallyAt; refine congrArg _ (Finsupp.ext fun u => ?_); cases u
  rw [Pipeline.launchCredit_owing, Finsupp.single_eq_same, Finset.sum_congr rfl fun d _ => owed_r2 d c j,
    Finset.sum_ite_eq' Finset.univ (xn c) fun _ => chAmt j.val, if_pos (Finset.mem_univ _)]

def credSem : Unit ⊕ (Fin 16 ⊕ Fin 16) → SemLoc sig
  | .inl _ => .reg barS
  | .inr (.inl j) => .dma (r1S j)
  | .inr (.inr j) => .dma (r2S j)

theorem credSem_inj : Function.Injective credSem := by
  rintro (_ | i | i) (_ | j | j) h
  · rfl
  · exact absurd h (bar_ne_r1S j)
  · exact absurd h (bar_ne_r2S j)
  · exact absurd h.symm (bar_ne_r1S i)
  · rw [r1S_inj h]
  · exact absurd h (r1S_ne_r2S i j)
  · exact absurd h.symm (bar_ne_r2S i)
  · exact absurd h.symm (r1S_ne_r2S j i)
  · rw [r2S_inj h]

theorem creds_of_launch (c : Dev nD) : (Pipeline.launchCred O₀ c : sProp 𝕄) ⊢ creds c := by
  unfold Pipeline.launchCred creds
  refine (bigSep_subset (Finset.subset_univ (Finset.univ.map ⟨credSem, credSem_inj⟩))).trans ?_
  rw [bigSep_map, bigSep_univ_sum, bigSep_univ_sum, bigSep_univ_of_subsingleton ()]
  show iprop(cred (tallyOn (barC c) (launchCredit (Pipeline.owing O₀) 0 (barC c)))
      ∗ (bigSep Finset.univ fun j : Fin 16 => cred (tallyOn (r1C c j) (launchCredit (Pipeline.owing O₀) 0 (r1C c j))))
      ∗ (bigSep Finset.univ fun j : Fin 16 => cred (tallyOn (r2C c j) (launchCredit (Pipeline.owing O₀) 0 (r2C c j))))) ⊢ _
  rw [launch_bar, bigSep_congr (s := Finset.univ) (fun (j : Fin 16) _ => congrArg cred (launch_r1 c j)),
    bigSep_congr (s := Finset.univ) (fun (j : Fin 16) _ => congrArg cred (launch_r2 c j))]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_of_launch (F := F) c) $$ Hcr
  imodintro
  unfold start G'
  isplitl
  · isplitl [HG]; · iexact HG
    isplitl [Hc]; · iexact Hc
    isplitl [Hlev]; · iexact Hlev
    isplitl [Hx]; · iexact Hx
    iexists m (oL c); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hm, Hst⟩
  isplitl [Hs]; · iexact Hs
  isplitl [Hm]; · iexact Hm
  iexact Hst

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hf, Hsc, Hz⟩
  isplitl [Hf]; · iexact Hf
  isplitl [Hz]; · iexact Hz
  iexact Hsc

def QC : PUnit × MemSt nD τ sig (Elt F) → Prop := fun r =>
  ∀ c : Dev nD, r.2.mem (oL c) = outV m c ∧ r.2.mem (xL c) = xs m c

theorem fin_read (c : Dev nD) (s' : Phys nD τ sig (Elt F)) :
    iprop(fin m c ∗ (emp : sProp 𝕄) ∗ SI s') ⊢ |={Set.univ}=> iprop(⌜s'.mem.mem (oL c) = outV m c ∧ s'.mem.mem (xL c) = xs m c⌝ ∗ SI s') := by
  unfold fin
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

set_option maxRecDepth 8000 in

theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ w => w.elim0) (hpf := fun _ k => k.elim0)
    (X := start m) (Y := fin m) (Z := fun _ => iprop(emp))
    (hX := start_intro m ρ) (hin := phi0_intro m) (hout := phi1_exit m)
    (QY := fun c mem => mem.mem (oL c) = outV m c ∧ mem.mem (xL c) = xs m c)
    (hY := fin_read m)
    (hQ := fun _ h c => (h c).2.2)

end Cert.KernelIdeal.Hand
end
-- ==== Proof.Run.lean ====
import proofs.«900106_g7700000000000107_dist_ag_v7x_xy2x2_y_m8192_n1024_bf16_1_alg».proof.Proof.State
import proofs.«900106_g7700000000000107_dist_ag_v7x_xy2x2_y_m8192_n1024_bf16_1_alg».proof.Proof.Body
import proofs.«900106_g7700000000000107_dist_ag_v7x_xy2x2_y_m8192_n1024_bf16_1_alg».proof.Proof.Launch

noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

-- Every fair run of the four devices ends without a fault, each result the gathered array and each argument block as at the start.
theorem run_all : θ_run defs (onTc (τ := τ) (main (F := F))) (s₀ m ρ) (QC m) :=
  run_main m ρ (body_obligation m)

end Cert.KernelIdeal.Hand
end
-- ==== Proof.Value.lean ====
import proofs.«900106_g7700000000000107_dist_ag_v7x_xy2x2_y_m8192_n1024_bf16_1_alg».proof.Defs
import proofs.«900106_g7700000000000107_dist_ag_v7x_xy2x2_y_m8192_n1024_bf16_1_alg».proof.Proof.Proto
import proofs.«900106_g7700000000000107_dist_ag_v7x_xy2x2_y_m8192_n1024_bf16_1_alg».proof.Proof.State
import Idealize.ShloMosaic.Lib.Layout
import Idealize.ShloMosaic.Lib.ValueIdx
import proofs.«900106_g7700000000000107_dist_ag_v7x_xy2x2_y_m8192_n1024_bf16_1_alg».proof.Proof.Gen.Pre_finite_inputs_Kernel
import proofs.«900106_g7700000000000107_dist_ag_v7x_xy2x2_y_m8192_n1024_bf16_1_alg».proof.Proof.Gen.Pre_finite_inputs_ReferenceIdeal
import proofs.«900106_g7700000000000107_dist_ag_v7x_xy2x2_y_m8192_n1024_bf16_1_alg».proof.Proof.Gen.ReferenceIdeal
import proofs.«900106_g7700000000000107_dist_ag_v7x_xy2x2_y_m8192_n1024_bf16_1_alg».proof.Proof.Gen.ReferenceIdeal.Run
import proofs.«900106_g7700000000000107_dist_ag_v7x_xy2x2_y_m8192_n1024_bf16_1_alg».proof.Proof.Gen.ReferenceIdeal.Read
import proofs.«900106_g7700000000000107_dist_ag_v7x_xy2x2_y_m8192_n1024_bf16_1_alg».proof.Proof.Run
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev refX : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0

abbrev refO : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_v0

theorem meshLin_rows (c : ℕ) : Layout.meshLin [2, 2] c [1] = c % 2 := by
  simp [Layout.meshLin, Layout.meshCoord, Layout.cutSize]

theorem src_coord (c : Dev nD) (R : ℕ) (hR : R < 16384) :
    (if R / 8192 = cy c then c else srcDev R).val % 2 = R / 8192 := by
  split
  · next h => exact h.symm
  · unfold srcDev; simp only; omega

theorem block_row (d : Dev nD) (R : ℕ) (hd : d.val % 2 = R / 8192) : (d.val % 2) * 8192 + R % 8192 = R := by
  omega

-- Row R of the gathered array is row R mod 8192 of the block of a device whose second coordinate is R / 8192, which is row R of the whole array.
theorem outV_eq_ref (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m (xL c) = Layout.blockN ⟨2, ![8192, 1024]⟩ ⟨2, ![16384, 1024]⟩ (Layout.meshBlock [2, 2] ![[1], []] c) (m' refX))
    (c : Dev nD) :
    outV (F := Ideal) m c = (Cert.ReferenceIdeal.Read.val_main_v0 (F := Ideal) (m' refX) : Buf (Elt Ideal) refO) := by
  funext i
  obtain ⟨R, q, rfl⟩ : ∃ (R : Fin 16384) (q : Fin 1024), i = ValueIdx.ix2 R q := ⟨i 0, i 1, ValueIdx.eq_ix2 i⟩
  have hR : R.val < 16384 := R.isLt

  show m (xL (if R.val / 8192 = cy c then c else srcDev R.val)) (ValueIdx.ix2 ⟨R.val % 8192, Nat.mod_lt _ (by decide)⟩ q)
    = m' refX (ValueIdx.ix2 R q)
  have hd := src_coord c R.val hR
  generalize (if R.val / 8192 = cy c then c else srcDev R.val) = d at hd ⊢
  rw [hagree d, Layout.blockN_apply]
  congr 1
  funext b
  apply Fin.ext
  rw [Layout.TilesN.idx_val]
  match b with
  | ⟨0, _⟩ =>
    show Layout.meshLin [2, 2] d.val [1] * 8192 + R.val % 8192 = R.val
    rw [meshLin_rows]; exact block_row d R.val hd
  | ⟨1, _⟩ =>
    show Layout.meshLin [2, 2] d.val [] * 1024 + q.val = q.val
    simp [Layout.meshLin]

theorem frame_pi : Cert.frame_KernelIdeal := fun m ρ _ =>
  (θ_run (defs (F := Ideal)) _ _).mono (fun _ h c => (h c).2) (run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- At the ideal instance rounding is the identity, so the gathered array is the reference's result.
theorem algebraic : Cert.algebraic_KernelIdeal_ReferenceIdeal := fun m ρ m' ρ' _ hagree =>
  ⟨Cert.ReferenceIdeal.Read.val_main_v0 (F := Ideal) (m' refX),
    (θ_run (defs (F := Ideal)) _ _).mono
      (fun _ h c => ⟨(h c).1.trans (outV_eq_ref m m' hagree c), (h c).2⟩) (run_all (F := Ideal) m ρ),
    (θ_run Cert.ReferenceIdeal.defs _ _).mono (fun _ h => h 0) (Cert.ReferenceIdeal.Value.run (F := Ideal) m' ρ')⟩

/-- info: 'Cert.KernelIdeal.Hand.algebraic' depends on axioms: [propext, Classical.choice, Quot.sound] -/
#guard_msgs in #print axioms algebraic

end Cert.KernelIdeal.Hand
end
-- ==== Proof.lean ====
import proofs.«900106_g7700000000000107_dist_ag_v7x_xy2x2_y_m8192_n1024_bf16_1_alg».proof.Defs
import proofs.«900106_g7700000000000107_dist_ag_v7x_xy2x2_y_m8192_n1024_bf16_1_alg».proof.Proof.Gen.Kernel
import proofs.«900106_g7700000000000107_dist_ag_v7x_xy2x2_y_m8192_n1024_bf16_1_alg».proof.Proof.Gen.KernelIdeal
import proofs.«900106_g7700000000000107_dist_ag_v7x_xy2x2_y_m8192_n1024_bf16_1_alg».proof.Proof.Gen.ReferenceIdeal
import proofs.«900106_g7700000000000107_dist_ag_v7x_xy2x2_y_m8192_n1024_bf16_1_alg».proof.Proof.Gen.Pre_finite_inputs_Kernel
import proofs.«900106_g7700000000000107_dist_ag_v7x_xy2x2_y_m8192_n1024_bf16_1_alg».proof.Proof.Gen.Pre_finite_inputs_ReferenceIdeal
import proofs.«900106_g7700000000000107_dist_ag_v7x_xy2x2_y_m8192_n1024_bf16_1_alg».proof.Proof.Value

noncomputable section

namespace Cert.Proof

open Idealize.ShloMosaic Idealize.SL.Sem

-- The two printed programs are one text; the run, proved once for any float instance, is read here at the word-level one.
theorem frame_p : Cert.frame_Kernel := fun m ρ _ =>
  (θ_run (Cert.KernelIdeal.defs (F := Bits)) _ _).mono (fun _ h c => (h c).2) (Cert.KernelIdeal.Hand.run_all (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, Cert.KernelIdeal.Hand.frame_pi, Cert.KernelIdeal.Hand.frame_ri, Cert.KernelIdeal.Hand.preserves, Cert.KernelIdeal.Hand.algebraic⟩

end Cert.Proof

end
